-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x352x352 : Shape := ⟨4, ![1, 1, 352, 352]⟩
abbrev S1x1x176x176 : Shape := ⟨4, ![1, 1, 176, 176]⟩
abbrev S1x1x88x88 : Shape := ⟨4, ![1, 1, 88, 88]⟩
abbrev S1x1x44x44 : Shape := ⟨4, ![1, 1, 44, 44]⟩
abbrev S1x1x22x22 : Shape := ⟨4, ![1, 1, 22, 22]⟩
abbrev S1x1x11x11 : Shape := ⟨4, ![1, 1, 11, 11]⟩
abbrev S_ : Shape := ⟨0, ![]⟩

class Facts : Prop where
  bcast_S_S1x1x352x352 : S_.BroadcastsInDim S1x1x352x352 (![] : Fin 0 → Fin S1x1x352x352.rank)
  reducesTo_S1x1x352x352_S_d0_1_2_3 : S1x1x352x352.ReducesTo [0, 1, 2, 3] S_
  h_S_ : 0 < S_.numel
  bcast_S_S1x1x176x176 : S_.BroadcastsInDim S1x1x176x176 (![] : Fin 0 → Fin S1x1x176x176.rank)
  reducesTo_S1x1x176x176_S_d0_1_2_3 : S1x1x176x176.ReducesTo [0, 1, 2, 3] S_
  bcast_S_S1x1x88x88 : S_.BroadcastsInDim S1x1x88x88 (![] : Fin 0 → Fin S1x1x88x88.rank)
  reducesTo_S1x1x88x88_S_d0_1_2_3 : S1x1x88x88.ReducesTo [0, 1, 2, 3] S_
  bcast_S_S1x1x44x44 : S_.BroadcastsInDim S1x1x44x44 (![] : Fin 0 → Fin S1x1x44x44.rank)
  reducesTo_S1x1x44x44_S_d0_1_2_3 : S1x1x44x44.ReducesTo [0, 1, 2, 3] S_
  bcast_S_S1x1x22x22 : S_.BroadcastsInDim S1x1x22x22 (![] : Fin 0 → Fin S1x1x22x22.rank)
  reducesTo_S1x1x22x22_S_d0_1_2_3 : S1x1x22x22.ReducesTo [0, 1, 2, 3] S_
  bcast_S_S1x1x11x11 : S_.BroadcastsInDim S1x1x11x11 (![] : Fin 0 → Fin S1x1x11x11.rank)
  reducesTo_S1x1x11x11_S_d0_1_2_3 : S1x1x11x11.ReducesTo [0, 1, 2, 3] S_

variable [Facts]

def fn_part3 {F : FTy → Type} [FloatOps F] (main_arg11 : FVec F S1x1x176x176 .f32) (main_v48 : IVec S_ 1) (main_v49 : FVec F S1x1x11x11 .f32) (main_v50 : FVec F S1x1x11x11 .f32) : IVec S_ 1 :=
  let main_v51 : IVec S1x1x11x11 1 := cmpf .olt main_v49 main_v50
  let main_c_19 : IVec S_ 1 := constantI S_ 1 1#1
  let main_v52 : IVec S_ 1 := (fun x v => Host.reduce IntOp.andi x v reducesTo_S1x1x11x11_S_d0_1_2_3 h_S_) main_v51 main_c_19
  let main_v53 : IVec S_ 1 := andi main_v48 main_v52
  let main_v54 : FVec F S1x1x176x176 .f32 := Host.absf main_arg11
  let main_cst_20 : FVec F S_ .f32 := constant S_ .f32 0x7F800000#32
  let main_v55 : FVec F S1x1x176x176 .f32 := broadcastInDim S1x1x176x176 ![] bcast_S_S1x1x176x176 main_cst_20
  let main_v56 : IVec S1x1x176x176 1 := cmpf .olt main_v54 main_v55
  let main_c_21 : IVec S_ 1 := constantI S_ 1 1#1
  let main_v57 : IVec S_ 1 := (fun x v => Host.reduce IntOp.andi x v reducesTo_S1x1x176x176_S_d0_1_2_3 h_S_) main_v56 main_c_21
  let main_v58 : IVec S_ 1 := andi main_v53 main_v57
  main_v58

def fn_part2 {F : FTy → Type} [FloatOps F] (main_arg7 : FVec F S1x1x88x88 .f32) (main_arg8 : FVec F S1x1x44x44 .f32) (main_arg9 : FVec F S1x1x22x22 .f32) (main_arg10 : FVec F S1x1x11x11 .f32) (main_arg11 : FVec F S1x1x176x176 .f32) (main_v33 : IVec S_ 1) : IVec S_ 1 :=
  let main_v34 : FVec F S1x1x88x88 .f32 := Host.absf main_arg7
  let main_cst_12 : FVec F S_ .f32 := constant S_ .f32 0x7F800000#32
  let main_v35 : FVec F S1x1x88x88 .f32 := broadcastInDim S1x1x88x88 ![] bcast_S_S1x1x88x88 main_cst_12
  let main_v36 : IVec S1x1x88x88 1 := cmpf .olt main_v34 main_v35
  let main_c_13 : IVec S_ 1 := constantI S_ 1 1#1
  let main_v37 : IVec S_ 1 := (fun x v => Host.reduce IntOp.andi x v reducesTo_S1x1x88x88_S_d0_1_2_3 h_S_) main_v36 main_c_13
  let main_v38 : IVec S_ 1 := andi main_v33 main_v37
  let main_v39 : FVec F S1x1x44x44 .f32 := Host.absf main_arg8
  let main_cst_14 : FVec F S_ .f32 := constant S_ .f32 0x7F800000#32
  let main_v40 : FVec F S1x1x44x44 .f32 := broadcastInDim S1x1x44x44 ![] bcast_S_S1x1x44x44 main_cst_14
  let main_v41 : IVec S1x1x44x44 1 := cmpf .olt main_v39 main_v40
  let main_c_15 : IVec S_ 1 := constantI S_ 1 1#1
  let main_v42 : IVec S_ 1 := (fun x v => Host.reduce IntOp.andi x v reducesTo_S1x1x44x44_S_d0_1_2_3 h_S_) main_v41 main_c_15
  let main_v43 : IVec S_ 1 := andi main_v38 main_v42
  let main_v44 : FVec F S1x1x22x22 .f32 := Host.absf main_arg9
  let main_cst_16 : FVec F S_ .f32 := constant S_ .f32 0x7F800000#32
  let main_v45 : FVec F S1x1x22x22 .f32 := broadcastInDim S1x1x22x22 ![] bcast_S_S1x1x22x22 main_cst_16
  let main_v46 : IVec S1x1x22x22 1 := cmpf .olt main_v44 main_v45
  let main_c_17 : IVec S_ 1 := constantI S_ 1 1#1
  let main_v47 : IVec S_ 1 := (fun x v => Host.reduce IntOp.andi x v reducesTo_S1x1x22x22_S_d0_1_2_3 h_S_) main_v46 main_c_17
  let main_v48 : IVec S_ 1 := andi main_v43 main_v47
  let main_v49 : FVec F S1x1x11x11 .f32 := Host.absf main_arg10
  let main_cst_18 : FVec F S_ .f32 := constant S_ .f32 0x7F800000#32
  let main_v50 : FVec F S1x1x11x11 .f32 := broadcastInDim S1x1x11x11 ![] bcast_S_S1x1x11x11 main_cst_18
  fn_part3 (F := F) main_arg11 main_v48 main_v49 main_v50

def fn_part1 {F : FTy → Type} [FloatOps F] (main_arg4 : FVec F S1x1x22x22 .f32) (main_arg5 : FVec F S1x1x11x11 .f32) (main_arg6 : FVec F S1x1x176x176 .f32) (main_arg7 : FVec F S1x1x88x88 .f32) (main_arg8 : FVec F S1x1x44x44 .f32) (main_arg9 : FVec F S1x1x22x22 .f32) (main_arg10 : FVec F S1x1x11x11 .f32) (main_arg11 : FVec F S1x1x176x176 .f32) (main_v13 : IVec S_ 1) (main_v16 : IVec S1x1x44x44 1) : IVec S_ 1 :=
  let main_c_5 : IVec S_ 1 := constantI S_ 1 1#1
  let main_v17 : IVec S_ 1 := (fun x v => Host.reduce IntOp.andi x v reducesTo_S1x1x44x44_S_d0_1_2_3 h_S_) main_v16 main_c_5
  let main_v18 : IVec S_ 1 := andi main_v13 main_v17
  let main_v19 : FVec F S1x1x22x22 .f32 := Host.absf main_arg4
  let main_cst_6 : FVec F S_ .f32 := constant S_ .f32 0x7F800000#32
  let main_v20 : FVec F S1x1x22x22 .f32 := broadcastInDim S1x1x22x22 ![] bcast_S_S1x1x22x22 main_cst_6
  let main_v21 : IVec S1x1x22x22 1 := cmpf .olt main_v19 main_v20
  let main_c_7 : IVec S_ 1 := constantI S_ 1 1#1
  let main_v22 : IVec S_ 1 := (fun x v => Host.reduce IntOp.andi x v reducesTo_S1x1x22x22_S_d0_1_2_3 h_S_) main_v21 main_c_7
  let main_v23 : IVec S_ 1 := andi main_v18 main_v22
  let main_v24 : FVec F S1x1x11x11 .f32 := Host.absf main_arg5
  let main_cst_8 : FVec F S_ .f32 := constant S_ .f32 0x7F800000#32
  let main_v25 : FVec F S1x1x11x11 .f32 := broadcastInDim S1x1x11x11 ![] bcast_S_S1x1x11x11 main_cst_8
  let main_v26 : IVec S1x1x11x11 1 := cmpf .olt main_v24 main_v25
  let main_c_9 : IVec S_ 1 := constantI S_ 1 1#1
  let main_v27 : IVec S_ 1 := (fun x v => Host.reduce IntOp.andi x v reducesTo_S1x1x11x11_S_d0_1_2_3 h_S_) main_v26 main_c_9
  let main_v28 : IVec S_ 1 := andi main_v23 main_v27
  let main_v29 : FVec F S1x1x176x176 .f32 := Host.absf main_arg6
  let main_cst_10 : FVec F S_ .f32 := constant S_ .f32 0x7F800000#32
  let main_v30 : FVec F S1x1x176x176 .f32 := broadcastInDim S1x1x176x176 ![] bcast_S_S1x1x176x176 main_cst_10
  let main_v31 : IVec S1x1x176x176 1 := cmpf .olt main_v29 main_v30
  let main_c_11 : IVec S_ 1 := constantI S_ 1 1#1
  let main_v32 : IVec S_ 1 := (fun x v => Host.reduce IntOp.andi x v reducesTo_S1x1x176x176_S_d0_1_2_3 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x1x352x352 .f32) (main_arg1 : FVec F S1x1x176x176 .f32) (main_arg2 : FVec F S1x1x88x88 .f32) (main_arg3 : FVec F S1x1x44x44 .f32) (main_arg4 : FVec F S1x1x22x22 .f32) (main_arg5 : FVec F S1x1x11x11 .f32) (main_arg6 : FVec F S1x1x176x176 .f32) (main_arg7 : FVec F S1x1x88x88 .f32) (main_arg8 : FVec F S1x1x44x44 .f32) (main_arg9 : FVec F S1x1x22x22 .f32) (main_arg10 : FVec F S1x1x11x11 .f32) (main_arg11 : FVec F S1x1x176x176 .f32) : IVec S_ 1 :=
  let main_v0 : FVec F S1x1x352x352 .f32 := Host.absf main_arg0
  let main_cst : FVec F S_ .f32 := constant S_ .f32 0x7F800000#32
  let main_v1 : FVec F S1x1x352x352 .f32 := broadcastInDim S1x1x352x352 ![] bcast_S_S1x1x352x352 main_cst
  let main_v2 : IVec S1x1x352x352 1 := cmpf .olt main_v0 main_v1
  let main_c : IVec S_ 1 := constantI S_ 1 1#1
  let main_v3 : IVec S_ 1 := (fun x v => Host.reduce IntOp.andi x v reducesTo_S1x1x352x352_S_d0_1_2_3 h_S_) main_v2 main_c
  let main_v4 : FVec F S1x1x176x176 .f32 := Host.absf main_arg1
  let main_cst_0 : FVec F S_ .f32 := constant S_ .f32 0x7F800000#32
  let main_v5 : FVec F S1x1x176x176 .f32 := broadcastInDim S1x1x176x176 ![] bcast_S_S1x1x176x176 main_cst_0
  let main_v6 : IVec S1x1x176x176 1 := cmpf .olt main_v4 main_v5
  let main_c_1 : IVec S_ 1 := constantI S_ 1 1#1
  let main_v7 : IVec S_ 1 := (fun x v => Host.reduce IntOp.andi x v reducesTo_S1x1x176x176_S_d0_1_2_3 h_S_) main_v6 main_c_1
  let main_v8 : IVec S_ 1 := andi main_v3 main_v7
  let main_v9 : FVec F S1x1x88x88 .f32 := Host.absf main_arg2
  let main_cst_2 : FVec F S_ .f32 := constant S_ .f32 0x7F800000#32
  let main_v10 : FVec F S1x1x88x88 .f32 := broadcastInDim S1x1x88x88 ![] bcast_S_S1x1x88x88 main_cst_2
  let main_v11 : IVec S1x1x88x88 1 := cmpf .olt main_v9 main_v10
  let main_c_3 : IVec S_ 1 := constantI S_ 1 1#1
  let main_v12 : IVec S_ 1 := (fun x v => Host.reduce IntOp.andi x v reducesTo_S1x1x88x88_S_d0_1_2_3 h_S_) main_v11 main_c_3
  let main_v13 : IVec S_ 1 := andi main_v8 main_v12
  let main_v14 : FVec F S1x1x44x44 .f32 := Host.absf main_arg3
  let main_cst_4 : FVec F S_ .f32 := constant S_ .f32 0x7F800000#32
  let main_v15 : FVec F S1x1x44x44 .f32 := broadcastInDim S1x1x44x44 ![] bcast_S_S1x1x44x44 main_cst_4
  let main_v16 : IVec S1x1x44x44 1 := cmpf .olt main_v14 main_v15
  fn_part1 (F := F) main_arg4 main_arg5 main_arg6 main_arg7 main_arg8 main_arg9 main_arg10 main_arg11 main_v13 main_v16
-- ==== Kernel.lean ====
abbrev S1x1x352x352 : Shape := ⟨4, ![1, 1, 352, 352]⟩
abbrev S1x1x176x176 : Shape := ⟨4, ![1, 1, 176, 176]⟩
abbrev S1x1x88x88 : Shape := ⟨4, ![1, 1, 88, 88]⟩
abbrev S1x1x44x44 : Shape := ⟨4, ![1, 1, 44, 44]⟩
abbrev S1x1x22x22 : Shape := ⟨4, ![1, 1, 22, 22]⟩
abbrev S1x1x11x11 : Shape := ⟨4, ![1, 1, 11, 11]⟩
abbrev S176x176 : Shape := ⟨2, ![176, 176]⟩
abbrev S352x176 : Shape := ⟨2, ![352, 176]⟩
abbrev S352x352 : Shape := ⟨2, ![352, 352]⟩
abbrev S88x88 : Shape := ⟨2, ![88, 88]⟩
abbrev S352x88 : Shape := ⟨2, ![352, 88]⟩
abbrev S44x44 : Shape := ⟨2, ![44, 44]⟩
abbrev S352x44 : Shape := ⟨2, ![352, 44]⟩
abbrev S22x22 : Shape := ⟨2, ![22, 22]⟩
abbrev S352x22 : Shape := ⟨2, ![352, 22]⟩
abbrev S11x11 : Shape := ⟨2, ![11, 11]⟩
abbrev S352x11 : Shape := ⟨2, ![352, 11]⟩
abbrev S1x12x352x352 : Shape := ⟨4, ![1, 12, 352, 352]⟩

abbrev nBuf : Space → Nat
  | .hbm => 24
  | .vmem => 22
  | .smem => 0
  | _ => 0

abbrev bufTy : (tb : Table) → Fin (tcTables nBuf tb) → BufTy
  | .hbm, ⟨0, _⟩ => ⟨S1x1x352x352, .f32⟩
  | .hbm, ⟨1, _⟩ => ⟨S1x1x176x176, .f32⟩
  | .hbm, ⟨2, _⟩ => ⟨S1x1x88x88, .f32⟩
  | .hbm, ⟨3, _⟩ => ⟨S1x1x44x44, .f32⟩
  | .hbm, ⟨4, _⟩ => ⟨S1x1x22x22, .f32⟩
  | .hbm, ⟨5, _⟩ => ⟨S1x1x11x11, .f32⟩
  | .hbm, ⟨6, _⟩ => ⟨S1x1x176x176, .f32⟩
  | .hbm, ⟨7, _⟩ => ⟨S1x1x88x88, .f32⟩
  | .hbm, ⟨8, _⟩ => ⟨S1x1x44x44, .f32⟩
  | .hbm, ⟨9, _⟩ => ⟨S1x1x22x22, .f32⟩
  | .hbm, ⟨10, _⟩ => ⟨S1x1x11x11, .f32⟩
  | .hbm, ⟨11, _⟩ => ⟨S1x1x176x176, .f32⟩
  | .hbm, ⟨12, _⟩ => ⟨S1x1x352x352, .f32⟩
  | .hbm, ⟨13, _⟩ => ⟨S1x1x352x352, .f32⟩
  | .hbm, ⟨14, _⟩ => ⟨S1x1x352x352, .f32⟩
  | .hbm, ⟨15, _⟩ => ⟨S1x1x352x352, .f32⟩
  | .hbm, ⟨16, _⟩ => ⟨S1x1x352x352, .f32⟩
  | .hbm, ⟨17, _⟩ => ⟨S1x1x352x352, .f32⟩
  | .hbm, ⟨18, _⟩ => ⟨S1x1x352x352, .f32⟩
  | .hbm, ⟨19, _⟩ => ⟨S1x1x352x352, .f32⟩
  | .hbm, ⟨20, _⟩ => ⟨S1x1x352x352, .f32⟩
  | .hbm, ⟨21, _⟩ => ⟨S1x1x352x352, .f32⟩
  | .hbm, ⟨22, _⟩ => ⟨S1x1x352x352, .f32⟩
  | .hbm, ⟨23, _⟩ => ⟨S1x12x352x352, .f32⟩
  | .local _ .vmem, ⟨0, _⟩ => ⟨S1x1x176x176, .f32⟩
  | .local _ .vmem, ⟨1, _⟩ => ⟨S1x1x352x352, .f32⟩
  | .local _ .vmem, ⟨2, _⟩ => ⟨S1x1x88x88, .f32⟩
  | .local _ .vmem, ⟨3, _⟩ => ⟨S1x1x352x352, .f32⟩
  | .local _ .vmem, ⟨4, _⟩ => ⟨S1x1x44x44, .f32⟩
  | .local _ .vmem, ⟨5, _⟩ => ⟨S1x1x352x352, .f32⟩
  | .local _ .vmem, ⟨6, _⟩ => ⟨S1x1x22x22, .f32⟩
  | .local _ .vmem, ⟨7, _⟩ => ⟨S1x1x352x352, .f32⟩
  | .local _ .vmem, ⟨8, _⟩ => ⟨S1x1x11x11, .f32⟩
  | .local _ .vmem, ⟨9, _⟩ => ⟨S1x1x352x352, .f32⟩
  | .local _ .vmem, ⟨10, _⟩ => ⟨S1x1x176x176, .f32⟩
  | .local _ .vmem, ⟨11, _⟩ => ⟨S1x1x352x352, .f32⟩
  | .local _ .vmem, ⟨12, _⟩ => ⟨S1x1x88x88, .f32⟩
  | .local _ .vmem, ⟨13, _⟩ => ⟨S1x1x352x352, .f32⟩
  | .local _ .vmem, ⟨14, _⟩ => ⟨S1x1x44x44, .f32⟩
  | .local _ .vmem, ⟨15, _⟩ => ⟨S1x1x352x352, .f32⟩
  | .local _ .vmem, ⟨16, _⟩ => ⟨S1x1x22x22, .f32⟩
  | .local _ .vmem, ⟨17, _⟩ => ⟨S1x1x352x352, .f32⟩
  | .local _ .vmem, ⟨18, _⟩ => ⟨S1x1x11x11, .f32⟩
  | .local _ .vmem, ⟨19, _⟩ => ⟨S1x1x352x352, .f32⟩
  | .local _ .vmem, ⟨20, _⟩ => ⟨S1x1x176x176, .f32⟩
  | .local _ .vmem, ⟨21, _⟩ => ⟨S1x1x352x352, .f32⟩
  | _, _ => ⟨S1x1x352x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc2_stg0_0 : Ref sig .tc := ⟨.vmem, 4, rfl⟩
abbrev cc2_stg1_0 : Ref sig .tc := ⟨.vmem, 5, rfl⟩
abbrev cc3_stg0_0 : Ref sig .tc := ⟨.vmem, 6, rfl⟩
abbrev cc3_stg1_0 : Ref sig .tc := ⟨.vmem, 7, rfl⟩
abbrev cc4_stg0_0 : Ref sig .tc := ⟨.vmem, 8, rfl⟩
abbrev cc4_stg1_0 : Ref sig .tc := ⟨.vmem, 9, rfl⟩
abbrev cc5_stg0_0 : Ref sig .tc := ⟨.vmem, 10, rfl⟩
abbrev cc5_stg1_0 : Ref sig .tc := ⟨.vmem, 11, rfl⟩
abbrev cc6_stg0_0 : Ref sig .tc := ⟨.vmem, 12, rfl⟩
abbrev cc6_stg1_0 : Ref sig .tc := ⟨.vmem, 13, rfl⟩
abbrev cc7_stg0_0 : Ref sig .tc := ⟨.vmem, 14, rfl⟩
abbrev cc7_stg1_0 : Ref sig .tc := ⟨.vmem, 15, rfl⟩
abbrev cc8_stg0_0 : Ref sig .tc := ⟨.vmem, 16, rfl⟩
abbrev cc8_stg1_0 : Ref sig .tc := ⟨.vmem, 17, rfl⟩
abbrev cc9_stg0_0 : Ref sig .tc := ⟨.vmem, 18, rfl⟩
abbrev cc9_stg1_0 : Ref sig .tc := ⟨.vmem, 19, rfl⟩
abbrev cc10_stg0_0 : Ref sig .tc := ⟨.vmem, 20, rfl⟩
abbrev cc10_stg1_0 : Ref sig .tc := ⟨.vmem, 21, rfl⟩
abbrev cc0_sem0_0 : DmaSem sig := 0
abbrev cc0_sem1_0 : DmaSem sig := 1
abbrev cc1_sem0_0 : DmaSem sig := 2
abbrev cc1_sem1_0 : DmaSem sig := 3
abbrev cc2_sem0_0 : DmaSem sig := 4
abbrev cc2_sem1_0 : DmaSem sig := 5
abbrev cc3_sem0_0 : DmaSem sig := 6
abbrev cc3_sem1_0 : DmaSem sig := 7
abbrev cc4_sem0_0 : DmaSem sig := 8
abbrev cc4_sem1_0 : DmaSem sig := 9
abbrev cc5_sem0_0 : DmaSem sig := 10
abbrev cc5_sem1_0 : DmaSem sig := 11
abbrev cc6_sem0_0 : DmaSem sig := 12
abbrev cc6_sem1_0 : DmaSem sig := 13
abbrev cc7_sem0_0 : DmaSem sig := 14
abbrev cc7_sem1_0 : DmaSem sig := 15
abbrev cc8_sem0_0 : DmaSem sig := 16
abbrev cc8_sem1_0 : DmaSem sig := 17
abbrev cc9_sem0_0 : DmaSem sig := 18
abbrev cc9_sem1_0 : DmaSem sig := 19
abbrev cc10_sem0_0 : DmaSem sig := 20
abbrev cc10_sem1_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1x1x176x176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x352x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 1 → Memref sig .tc .vmem S1x1x88x88 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1x352x352 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![1], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage2_0 : Fin 1 → Memref sig .tc .vmem S1x1x44x44 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1x352x352 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![1], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage3_0 : Fin 1 → Memref sig .tc .vmem S1x1x22x22 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x1x352x352 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![1], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage4_0 : Fin 1 → Memref sig .tc .vmem S1x1x11x11 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x1x352x352 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨1, ![1], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage5_0 : Fin 1 → Memref sig .tc .vmem S1x1x176x176 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1x1x352x352 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev grid6 : Pipeline.Grid := ⟨1, ![1], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage6_0 : Fin 1 → Memref sig .tc .vmem S1x1x88x88 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1x1x352x352 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev grid7 : Pipeline.Grid := ⟨1, ![1], ![false]⟩

def cc7_transform_0 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc7_transform_1 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage7_0 : Fin 1 → Memref sig .tc .vmem S1x1x44x44 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1x1x352x352 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev grid8 : Pipeline.Grid := ⟨1, ![1], ![false]⟩

def cc8_transform_0 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc8_transform_1 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage8_0 : Fin 1 → Memref sig .tc .vmem S1x1x22x22 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S1x1x352x352 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev grid9 : Pipeline.Grid := ⟨1, ![1], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc9_transform_1 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage9_0 : Fin 1 → Memref sig .tc .vmem S1x1x11x11 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S1x1x352x352 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev grid10 : Pipeline.Grid := ⟨1, ![1], ![false]⟩

def cc10_transform_0 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc10_transform_1 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage10_0 : Fin 1 → Memref sig .tc .vmem S1x1x176x176 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S1x1x352x352 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

class Facts₀ : Prop where
  inb_S1x1x176x176_S1x1x176x176_0_0_0_0 : ∀ a, (![0, 0, 0, 0] : Fin 4 → Nat) a + S1x1x176x176.size a ≤ S1x1x176x176.size a
  h_S1x1x176x176 : 0 < S1x1x176x176.numel
  shapeCasts_S1x1x176x176_S176x176 : S1x1x176x176.ShapeCasts S176x176
  iota_S352x176_d0_w32 : S352x176.Iotas .tc 32 [0]
  iota_S352x176_d1_w32 : S352x176.Iotas .tc 32 [1]
  natLt_1_32 : 1 < 32
  inb_S1x1x352x352_S1x1x352x352_0_0_0_0 : ∀ a, (![0, 0, 0, 0] : Fin 4 → Nat) a + S1x1x352x352.size a ≤ S1x1x352x352.size a
  h_S1x1x352x352 : 0 < S1x1x352x352.numel
  shapeCasts_S1x1x352x352_S352x352 : S1x1x352x352.ShapeCasts S352x352
  shapeCasts_S352x352_S1x1x352x352 : S352x352.ShapeCasts S1x1x352x352
  inb_S1x1x88x88_S1x1x88x88_0_0_0_0 : ∀ a, (![0, 0, 0, 0] : Fin 4 → Nat) a + S1x1x88x88.size a ≤ S1x1x88x88.size a
  h_S1x1x88x88 : 0 < S1x1x88x88.numel
  shapeCasts_S1x1x88x88_S88x88 : S1x1x88x88.ShapeCasts S88x88
  iota_S352x88_d0_w32 : S352x88.Iotas .tc 32 [0]
  iota_S352x88_d1_w32 : S352x88.Iotas .tc 32 [1]
  inb_S1x1x44x44_S1x1x44x44_0_0_0_0 : ∀ a, (![0, 0, 0, 0] : Fin 4 → Nat) a + S1x1x44x44.size a ≤ S1x1x44x44.size a
  h_S1x1x44x44 : 0 < S1x1x44x44.numel
  shapeCasts_S1x1x44x44_S44x44 : S1x1x44x44.ShapeCasts S44x44
  iota_S352x44_d0_w32 : S352x44.Iotas .tc 32 [0]
  iota_S352x44_d1_w32 : S352x44.Iotas .tc 32 [1]
  inb_S1x1x22x22_S1x1x22x22_0_0_0_0 : ∀ a, (![0, 0, 0, 0] : Fin 4 → Nat) a + S1x1x22x22.size a ≤ S1x1x22x22.size a
  h_S1x1x22x22 : 0 < S1x1x22x22.numel
  shapeCasts_S1x1x22x22_S22x22 : S1x1x22x22.ShapeCasts S22x22
  iota_S352x22_d0_w32 : S352x22.Iotas .tc 32 [0]
  iota_S352x22_d1_w32 : S352x22.Iotas .tc 32 [1]
  inb_S1x1x11x11_S1x1x11x11_0_0_0_0 : ∀ a, (![0, 0, 0, 0] : Fin 4 → Nat) a + S1x1x11x11.size a ≤ S1x1x11x11.size a
  h_S1x1x11x11 : 0 < S1x1x11x11.numel
  shapeCasts_S1x1x11x11_S11x11 : S1x1x11x11.ShapeCasts S11x11
  iota_S352x11_d0_w32 : S352x11.Iotas .tc 32 [0]
  iota_S352x11_d1_w32 : S352x11.Iotas .tc 32 [1]
  concatenates_S1x1x352x352_S1x1x352x352_S1x1x352x352_S1x1x352x352_S1x1x352x352_S1x1x352x352_S1x1x352x352_S1x1x352x352_S1x1x352x352_S1x1x352x352_S1x1x352x352_S1x1x352x352_S1x12x352x352_d1 : Shape.Concatenates [S1x1x352x352, S1x1x352x352, S1x1x352x352, S1x1x352x352, S1x1x352x352, S1x1x352x352, S1x1x352x352, S1x1x352x352, S1x1x352x352, S1x1x352x352, S1x1x352x352, S1x1x352x352] S1x12x352x352 1
  dot_S352x176_S176x176_S352x176_1_0_0_1_n_n_wf : DotDims.WF S352x176 S176x176 S352x176 [1] [0] [0] [1] [] []
  dot_S352x176_S352x176_S352x352_1_1_0_0_n_n_wf : DotDims.WF S352x176 S352x176 S352x352 [1] [1] [0] [0] [] []
  dot_S352x88_S88x88_S352x88_1_0_0_1_n_n_wf : DotDims.WF S352x88 S88x88 S352x88 [1] [0] [0] [1] [] []
  dot_S352x88_S352x88_S352x352_1_1_0_0_n_n_wf : DotDims.WF S352x88 S352x88 S352x352 [1] [1] [0] [0] [] []
  dot_S352x44_S44x44_S352x44_1_0_0_1_n_n_wf : DotDims.WF S352x44 S44x44 S352x44 [1] [0] [0] [1] [] []
  dot_S352x44_S352x44_S352x352_1_1_0_0_n_n_wf : DotDims.WF S352x44 S352x44 S352x352 [1] [1] [0] [0] [] []
  dot_S352x22_S22x22_S352x22_1_0_0_1_n_n_wf : DotDims.WF S352x22 S22x22 S352x22 [1] [0] [0] [1] [] []
  dot_S352x22_S352x22_S352x352_1_1_0_0_n_n_wf : DotDims.WF S352x22 S352x22 S352x352 [1] [1] [0] [0] [] []
  dot_S352x11_S11x11_S352x11_1_0_0_1_n_n_wf : DotDims.WF S352x11 S11x11 S352x11 [1] [0] [0] [1] [] []
  dot_S352x11_S352x11_S352x352_1_1_0_0_n_n_wf : DotDims.WF S352x11 S352x11 S352x352 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x176x176.size a ≤ S1x1x176x176.size a
  hwx0_0 : ∀ i : grid0.Coords, EltTy.bits .f32 = 32 ∨ (Rect.block (s := S1x1x176x176) S1x1x176x176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x352x352.size a ≤ S1x1x352x352.size a
  hwx0_1 : ∀ i : grid0.Coords, EltTy.bits .f32 = 32 ∨ (Rect.block (s := S1x1x352x352) S1x1x352x352.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1x88x88.size a ≤ S1x1x88x88.size a
  hwx1_0 : ∀ i : grid1.Coords, EltTy.bits .f32 = 32 ∨ (Rect.block (s := S1x1x88x88) S1x1x88x88.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x352x352.size a ≤ S1x1x352x352.size a
  hwx1_1 : ∀ i : grid1.Coords, EltTy.bits .f32 = 32 ∨ (Rect.block (s := S1x1x352x352) S1x1x352x352.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1x44x44.size a ≤ S1x1x44x44.size a
  hwx2_0 : ∀ i : grid2.Coords, EltTy.bits .f32 = 32 ∨ (Rect.block (s := S1x1x44x44) S1x1x44x44.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1x352x352.size a ≤ S1x1x352x352.size a
  hwx2_1 : ∀ i : grid2.Coords, EltTy.bits .f32 = 32 ∨ (Rect.block (s := S1x1x352x352) S1x1x352x352.size (cc2_transform_1 i) (hinb2_1 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1x22x22.size a ≤ S1x1x22x22.size a
  hwx3_0 : ∀ i : grid3.Coords, EltTy.bits .f32 = 32 ∨ (Rect.block (s := S1x1x22x22) S1x1x22x22.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1x352x352.size a ≤ S1x1x352x352.size a
  hwx3_1 : ∀ i : grid3.Coords, EltTy.bits .f32 = 32 ∨ (Rect.block (s := S1x1x352x352) S1x1x352x352.size (cc3_transform_1 i) (hinb3_1 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x1x11x11.size a ≤ S1x1x11x11.size a
  hwx4_0 : ∀ i : grid4.Coords, EltTy.bits .f32 = 32 ∨ (Rect.block (s := S1x1x11x11) S1x1x11x11.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1x352x352.size a ≤ S1x1x352x352.size a
  hwx4_1 : ∀ i : grid4.Coords, EltTy.bits .f32 = 32 ∨ (Rect.block (s := S1x1x352x352) S1x1x352x352.size (cc4_transform_1 i) (hinb4_1 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x1x176x176.size a ≤ S1x1x176x176.size a
  hwx5_0 : ∀ i : grid5.Coords, EltTy.bits .f32 = 32 ∨ (Rect.block (s := S1x1x176x176) S1x1x176x176.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1x352x352.size a ≤ S1x1x352x352.size a
  hwx5_1 : ∀ i : grid5.Coords, EltTy.bits .f32 = 32 ∨ (Rect.block (s := S1x1x352x352) S1x1x352x352.size (cc5_transform_1 i) (hinb5_1 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1x1x88x88.size a ≤ S1x1x88x88.size a
  hwx6_0 : ∀ i : grid6.Coords, EltTy.bits .f32 = 32 ∨ (Rect.block (s := S1x1x88x88) S1x1x88x88.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x1x352x352.size a ≤ S1x1x352x352.size a
  hwx6_1 : ∀ i : grid6.Coords, EltTy.bits .f32 = 32 ∨ (Rect.block (s := S1x1x352x352) S1x1x352x352.size (cc6_transform_1 i) (hinb6_1 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1x1x44x44.size a ≤ S1x1x44x44.size a
  hwx7_0 : ∀ i : grid7.Coords, EltTy.bits .f32 = 32 ∨ (Rect.block (s := S1x1x44x44) S1x1x44x44.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1x352x352.size a ≤ S1x1x352x352.size a
  hwx7_1 : ∀ i : grid7.Coords, EltTy.bits .f32 = 32 ∨ (Rect.block (s := S1x1x352x352) S1x1x352x352.size (cc7_transform_1 i) (hinb7_1 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1x1x22x22.size a ≤ S1x1x22x22.size a
  hwx8_0 : ∀ i : grid8.Coords, EltTy.bits .f32 = 32 ∨ (Rect.block (s := S1x1x22x22) S1x1x22x22.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1x352x352.size a ≤ S1x1x352x352.size a
  hwx8_1 : ∀ i : grid8.Coords, EltTy.bits .f32 = 32 ∨ (Rect.block (s := S1x1x352x352) S1x1x352x352.size (cc8_transform_1 i) (hinb8_1 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1x1x11x11.size a ≤ S1x1x11x11.size a
  hwx9_0 : ∀ i : grid9.Coords, EltTy.bits .f32 = 32 ∨ (Rect.block (s := S1x1x11x11) S1x1x11x11.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x1x352x352.size a ≤ S1x1x352x352.size a
  hwx9_1 : ∀ i : grid9.Coords, EltTy.bits .f32 = 32 ∨ (Rect.block (s := S1x1x352x352) S1x1x352x352.size (cc9_transform_1 i) (hinb9_1 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S1x1x176x176.size a ≤ S1x1x176x176.size a
  hwx10_0 : ∀ i : grid10.Coords, EltTy.bits .f32 = 32 ∨ (Rect.block (s := S1x1x176x176) S1x1x176x176.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x1x352x352.size a ≤ S1x1x352x352.size a
  hwx10_1 : ∀ i : grid10.Coords, EltTy.bits .f32 = 32 ∨ (Rect.block (s := S1x1x352x352) S1x1x352x352.size (cc10_transform_1 i) (hinb10_1 i)).WholeWords (EltTy.packing .f32)

variable [Facts₀]

def dot_S352x176_S176x176_S352x176_1_0_0_1_n_n : DotDims S352x176 S176x176 S352x176 where
  lhsContracting := [1]
  rhsContracting := [0]
  lhsNonContracting := [0]
  rhsNonContracting := [1]
  lhsBatch := []
  rhsBatch := []
  wf := dot_S352x176_S176x176_S352x176_1_0_0_1_n_n_wf
def dot_S352x176_S352x176_S352x352_1_1_0_0_n_n : DotDims S352x176 S352x176 S352x352 where
  lhsContracting := [1]
  rhsContracting := [1]
  lhsNonContracting := [0]
  rhsNonContracting := [0]
  lhsBatch := []
  rhsBatch := []
  wf := dot_S352x176_S352x176_S352x352_1_1_0_0_n_n_wf
def dot_S352x88_S88x88_S352x88_1_0_0_1_n_n : DotDims S352x88 S88x88 S352x88 where
  lhsContracting := [1]
  rhsContracting := [0]
  lhsNonContracting := [0]
  rhsNonContracting := [1]
  lhsBatch := []
  rhsBatch := []
  wf := dot_S352x88_S88x88_S352x88_1_0_0_1_n_n_wf
def dot_S352x88_S352x88_S352x352_1_1_0_0_n_n : DotDims S352x88 S352x88 S352x352 where
  lhsContracting := [1]
  rhsContracting := [1]
  lhsNonContracting := [0]
  rhsNonContracting := [0]
  lhsBatch := []
  rhsBatch := []
  wf := dot_S352x88_S352x88_S352x352_1_1_0_0_n_n_wf
def dot_S352x44_S44x44_S352x44_1_0_0_1_n_n : DotDims S352x44 S44x44 S352x44 where
  lhsContracting := [1]
  rhsContracting := [0]
  lhsNonContracting := [0]
  rhsNonContracting := [1]
  lhsBatch := []
  rhsBatch := []
  wf := dot_S352x44_S44x44_S352x44_1_0_0_1_n_n_wf
def dot_S352x44_S352x44_S352x352_1_1_0_0_n_n : DotDims S352x44 S352x44 S352x352 where
  lhsContracting := [1]
  rhsContracting := [1]
  lhsNonContracting := [0]
  rhsNonContracting := [0]
  lhsBatch := []
  rhsBatch := []
  wf := dot_S352x44_S352x44_S352x352_1_1_0_0_n_n_wf
def dot_S352x22_S22x22_S352x22_1_0_0_1_n_n : DotDims S352x22 S22x22 S352x22 where
  lhsContracting := [1]
  rhsContracting := [0]
  lhsNonContracting := [0]
  rhsNonContracting := [1]
  lhsBatch := []
  rhsBatch := []
  wf := dot_S352x22_S22x22_S352x22_1_0_0_1_n_n_wf
def dot_S352x22_S352x22_S352x352_1_1_0_0_n_n : DotDims S352x22 S352x22 S352x352 where
  lhsContracting := [1]
  rhsContracting := [1]
  lhsNonContracting := [0]
  rhsNonContracting := [0]
  lhsBatch := []
  rhsBatch := []
  wf := dot_S352x22_S352x22_S352x352_1_1_0_0_n_n_wf
def dot_S352x11_S11x11_S352x11_1_0_0_1_n_n : DotDims S352x11 S11x11 S352x11 where
  lhsContracting := [1]
  rhsContracting := [0]
  lhsNonContracting := [0]
  rhsNonContracting := [1]
  lhsBatch := []
  rhsBatch := []
  wf := dot_S352x11_S11x11_S352x11_1_0_0_1_n_n_wf
def dot_S352x11_S352x11_S352x352_1_1_0_0_n_n : DotDims S352x11 S352x11 S352x352 where
  lhsContracting := [1]
  rhsContracting := [1]
  lhsNonContracting := [0]
  rhsNonContracting := [0]
  lhsBatch := []
  rhsBatch := []
  wf := dot_S352x11_S352x11_S352x352_1_1_0_0_n_n_wf

abbrev win0_0 : Pipeline.Window sig grid0 :=
  Pipeline.Window.ofSpec (Memref.whole main_arg1) S1x1x176x176.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x352x352.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S1x1x88x88.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x352x352.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg3) S1x1x44x44.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x1x352x352.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg4) S1x1x22x22.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x1x352x352.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg5) S1x1x11x11.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1x1x352x352.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_arg6) S1x1x176x176.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v5) S1x1x352x352.size cc5_transform_1 reads5_1 true true 1 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_arg7) S1x1x88x88.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v6) S1x1x352x352.size cc6_transform_1 reads6_1 true true 1 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_arg8) S1x1x44x44.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v7) S1x1x352x352.size cc7_transform_1 reads7_1 true true 1 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_arg9) S1x1x22x22.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v8) S1x1x352x352.size cc8_transform_1 reads8_1 true true 1 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_arg10) S1x1x11x11.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v9) S1x1x352x352.size cc9_transform_1 reads9_1 true true 1 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_arg11) S1x1x176x176.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_v10) S1x1x352x352.size cc10_transform_1 reads10_1 true true 1 stage10_1 sem10_1
    hrank10 hreads10_1 hinb10_1 nbuf10_1 (Memref.isWhole_whole _) hwx10_1 hstage10_1

abbrev win10 : Fin 2 → Pipeline.Window sig grid10 := fun | 0 => win10_0 | 1 => win10_1 | ⟨_ + 2, h⟩ => absurd h (Nat.not_lt.2 (Nat.le_add_left _ _))
abbrev spec10 : Fin 2 → Pipeline.WinSpec sig grid10.rank := fun w => (win10 w).toWinSpec

class Facts : Prop extends Facts₀ where

variable [Facts]
-- ==== ReferenceIdeal.lean ====
abbrev S1x1x352x352 : Shape := ⟨4, ![1, 1, 352, 352]⟩
abbrev S1x1x176x176 : Shape := ⟨4, ![1, 1, 176, 176]⟩
abbrev S1x1x88x88 : Shape := ⟨4, ![1, 1, 88, 88]⟩
abbrev S1x1x44x44 : Shape := ⟨4, ![1, 1, 44, 44]⟩
abbrev S1x1x22x22 : Shape := ⟨4, ![1, 1, 22, 22]⟩
abbrev S1x1x11x11 : Shape := ⟨4, ![1, 1, 11, 11]⟩
abbrev S1x1x176x2x176 : Shape := ⟨5, ![1, 1, 176, 2, 176]⟩
abbrev S1x1x352x176 : Shape := ⟨4, ![1, 1, 352, 176]⟩
abbrev S1x1x352x176x2 : Shape := ⟨5, ![1, 1, 352, 176, 2]⟩
abbrev S_ : Shape := ⟨0, ![]⟩
abbrev S1x1x88x4x88 : Shape := ⟨5, ![1, 1, 88, 4, 88]⟩
abbrev S1x1x352x88 : Shape := ⟨4, ![1, 1, 352, 88]⟩
abbrev S1x1x352x88x4 : Shape := ⟨5, ![1, 1, 352, 88, 4]⟩
abbrev S1x1x44x8x44 : Shape := ⟨5, ![1, 1, 44, 8, 44]⟩
abbrev S1x1x352x44 : Shape := ⟨4, ![1, 1, 352, 44]⟩
abbrev S1x1x352x44x8 : Shape := ⟨5, ![1, 1, 352, 44, 8]⟩
abbrev S1x1x22x16x22 : Shape := ⟨5, ![1, 1, 22, 16, 22]⟩
abbrev S1x1x352x22 : Shape := ⟨4, ![1, 1, 352, 22]⟩
abbrev S1x1x352x22x16 : Shape := ⟨5, ![1, 1, 352, 22, 16]⟩
abbrev S1x1x11x32x11 : Shape := ⟨5, ![1, 1, 11, 32, 11]⟩
abbrev S1x1x352x11 : Shape := ⟨4, ![1, 1, 352, 11]⟩
abbrev S1x1x352x11x32 : Shape := ⟨5, ![1, 1, 352, 11, 32]⟩
abbrev S1x12x352x352 : Shape := ⟨4, ![1, 12, 352, 352]⟩

abbrev nBuf : Space → Nat
  | .hbm => 90
  | .vmem => 0
  | .smem => 0
  | _ => 0

abbrev bufTy : (tb : Table) → Fin (tcTables nBuf tb) → BufTy
  | .hbm, ⟨0, _⟩ => ⟨S1x1x352x352, .f32⟩
  | .hbm, ⟨1, _⟩ => ⟨S1x1x176x176, .f32⟩
  | .hbm, ⟨2, _⟩ => ⟨S1x1x88x88, .f32⟩
  | .hbm, ⟨3, _⟩ => ⟨S1x1x44x44, .f32⟩
  | .hbm, ⟨4, _⟩ => ⟨S1x1x22x22, .f32⟩
  | .hbm, ⟨5, _⟩ => ⟨S1x1x11x11, .f32⟩
  | .hbm, ⟨6, _⟩ => ⟨S1x1x176x176, .f32⟩
  | .hbm, ⟨7, _⟩ => ⟨S1x1x88x88, .f32⟩
  | .hbm, ⟨8, _⟩ => ⟨S1x1x44x44, .f32⟩
  | .hbm, ⟨9, _⟩ => ⟨S1x1x22x22, .f32⟩
  | .hbm, ⟨10, _⟩ => ⟨S1x1x11x11, .f32⟩
  | .hbm, ⟨11, _⟩ => ⟨S1x1x176x176, .f32⟩
  | .hbm, ⟨12, _⟩ => ⟨S1x1x176x2x176, .f32⟩
  | .hbm, ⟨13, _⟩ => ⟨S1x1x352x176, .f32⟩
  | .hbm, ⟨14, _⟩ => ⟨S1x1x352x176x2, .f32⟩
  | .hbm, ⟨15, _⟩ => ⟨S1x1x352x352, .f32⟩
  | .hbm, ⟨16, _⟩ => ⟨S_, .i32⟩
  | .hbm, ⟨17, _⟩ => ⟨S_, .f32⟩
  | .hbm, ⟨18, _⟩ => ⟨S1x1x352x352, .f32⟩
  | .hbm, ⟨19, _⟩ => ⟨S1x1x88x4x88, .f32⟩
  | .hbm, ⟨20, _⟩ => ⟨S1x1x352x88, .f32⟩
  | .hbm, ⟨21, _⟩ => ⟨S1x1x352x88x4, .f32⟩
  | .hbm, ⟨22, _⟩ => ⟨S1x1x352x352, .f32⟩
  | .hbm, ⟨23, _⟩ => ⟨S_, .i32⟩
  | .hbm, ⟨24, _⟩ => ⟨S_, .f32⟩
  | .hbm, ⟨25, _⟩ => ⟨S1x1x352x352, .f32⟩
  | .hbm, ⟨26, _⟩ => ⟨S1x1x44x8x44, .f32⟩
  | .hbm, ⟨27, _⟩ => ⟨S1x1x352x44, .f32⟩
  | .hbm, ⟨28, _⟩ => ⟨S1x1x352x44x8, .f32⟩
  | .hbm, ⟨29, _⟩ => ⟨S1x1x352x352, .f32⟩
  | .hbm, ⟨30, _⟩ => ⟨S_, .i32⟩
  | .hbm, ⟨31, _⟩ => ⟨S_, .f32⟩
  | .hbm, ⟨32, _⟩ => ⟨S1x1x352x352, .f32⟩
  | .hbm, ⟨33, _⟩ => ⟨S1x1x22x16x22, .f32⟩
  | .hbm, ⟨34, _⟩ => ⟨S1x1x352x22, .f32⟩
  | .hbm, ⟨35, _⟩ => ⟨S1x1x352x22x16, .f32⟩
  | .hbm, ⟨36, _⟩ => ⟨S1x1x352x352, .f32⟩
  | .hbm, ⟨37, _⟩ => ⟨S_, .i32⟩
  | .hbm, ⟨38, _⟩ => ⟨S_, .f32⟩
  | .hbm, ⟨39, _⟩ => ⟨S1x1x352x352, .f32⟩
  | .hbm, ⟨40, _⟩ => ⟨S1x1x11x32x11, .f32⟩
  | .hbm, ⟨41, _⟩ => ⟨S1x1x352x11, .f32⟩
  | .hbm, ⟨42, _⟩ => ⟨S1x1x352x11x32, .f32⟩
  | .hbm, ⟨43, _⟩ => ⟨S1x1x352x352, .f32⟩
  | .hbm, ⟨44, _⟩ => ⟨S_, .i32⟩
  | .hbm, ⟨45, _⟩ => ⟨S_, .f32⟩
  | .hbm, ⟨46, _⟩ => ⟨S1x1x352x352, .f32⟩
  | .hbm, ⟨47, _⟩ => ⟨S1x1x176x2x176, .f32⟩
  | .hbm, ⟨48, _⟩ => ⟨S1x1x352x176, .f32⟩
  | .hbm, ⟨49, _⟩ => ⟨S1x1x352x176x2, .f32⟩
  | .hbm, ⟨50, _⟩ => ⟨S1x1x352x352, .f32⟩
  | .hbm, ⟨51, _⟩ => ⟨S_, .i32⟩
  | .hbm, ⟨52, _⟩ => ⟨S_, .f32⟩
  | .hbm, ⟨53, _⟩ => ⟨S1x1x352x352, .f32⟩
  | .hbm, ⟨54, _⟩ => ⟨S1x1x88x4x88, .f32⟩
  | .hbm, ⟨55, _⟩ => ⟨S1x1x352x88, .f32⟩
  | .hbm, ⟨56, _⟩ => ⟨S1x1x352x88x4, .f32⟩
  | .hbm, ⟨57, _⟩ => ⟨S1x1x352x352, .f32⟩
  | .hbm, ⟨58, _⟩ => ⟨S_, .i32⟩
  | .hbm, ⟨59, _⟩ => ⟨S_, .f32⟩
  | .hbm, ⟨60, _⟩ => ⟨S1x1x352x352, .f32⟩
  | .hbm, ⟨61, _⟩ => ⟨S1x1x44x8x44, .f32⟩
  | .hbm, ⟨62, _⟩ => ⟨S1x1x352x44, .f32⟩
  | .hbm, ⟨63, _⟩ => ⟨S1x1x352x44x8, .f32⟩
  | .hbm, ⟨64, _⟩ => ⟨S1x1x352x352, .f32⟩
  | .hbm, ⟨65, _⟩ => ⟨S_, .i32⟩
  | .hbm, ⟨66, _⟩ => ⟨S_, .f32⟩
  | .hbm, ⟨67, _⟩ => ⟨S1x1x352x352, .f32⟩
  | .hbm, ⟨68, _⟩ => ⟨S1x1x22x16x22, .f32⟩
  | .hbm, ⟨69, _⟩ => ⟨S1x1x352x22, .f32⟩
  | .hbm, ⟨70, _⟩ => ⟨S1x1x352x22x16, .f32⟩
  | .hbm, ⟨71, _⟩ => ⟨S1x1x352x352, .f32⟩
  | .hbm, ⟨72, _⟩ => ⟨S_, .i32⟩
  | .hbm, ⟨73, _⟩ => ⟨S_, .f32⟩
  | .hbm, ⟨74, _⟩ => ⟨S1x1x352x352, .f32⟩
  | .hbm, ⟨75, _⟩ => ⟨S1x1x11x32x11, .f32⟩
  | .hbm, ⟨76, _⟩ => ⟨S1x1x352x11, .f32⟩
  | .hbm, ⟨77, _⟩ => ⟨S1x1x352x11x32, .f32⟩
  | .hbm, ⟨78, _⟩ => ⟨S1x1x352x352, .f32⟩
  | .hbm, ⟨79, _⟩ => ⟨S_, .i32⟩
  | .hbm, ⟨80, _⟩ => ⟨S_, .f32⟩
  | .hbm, ⟨81, _⟩ => ⟨S1x1x352x352, .f32⟩
  | .hbm, ⟨82, _⟩ => ⟨S1x1x176x2x176, .f32⟩
  | .hbm, ⟨83, _⟩ => ⟨S1x1x352x176, .f32⟩
  | .hbm, ⟨84, _⟩ => ⟨S1x1x352x176x2, .f32⟩
  | .hbm, ⟨85, _⟩ => ⟨S1x1x352x352, .f32⟩
  | .hbm, ⟨86, _⟩ => ⟨S_, .i32⟩
  | .hbm, ⟨87, _⟩ => ⟨S_, .f32⟩
  | .hbm, ⟨88, _⟩ => ⟨S1x1x352x352, .f32⟩
  | .hbm, ⟨89, _⟩ => ⟨S1x12x352x352, .f32⟩
  | _, _ => ⟨S1x1x352x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_call4_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_call5_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_call6_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_call7_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_7 : Ref sig .tc := ⟨.hbm, 72, rfl⟩
abbrev main_call8_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_8 : Ref sig .tc := ⟨.hbm, 79, rfl⟩
abbrev main_call9_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_9 : Ref sig .tc := ⟨.hbm, 86, rfl⟩
abbrev main_call10_v0 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  bcast_S1x1x176x176_S1x1x176x2x176_0_1_2_4 : S1x1x176x176.BroadcastsInDim S1x1x176x2x176 (![0, 1, 2, 4] : Fin 4 → Fin S1x1x176x2x176.rank)
  shapeCasts_S1x1x176x2x176_S1x1x352x176 : S1x1x176x2x176.ShapeCasts S1x1x352x176
  bcast_S1x1x352x176_S1x1x352x176x2_0_1_2_3 : S1x1x352x176.BroadcastsInDim S1x1x352x176x2 (![0, 1, 2, 3] : Fin 4 → Fin S1x1x352x176x2.rank)
  shapeCasts_S1x1x352x176x2_S1x1x352x352 : S1x1x352x176x2.ShapeCasts S1x1x352x352
  pads_S1x1x352x352_S1x1x352x352_000_000_000_000 : S1x1x352x352.Pads (![0, 0, 0, 0] : Fin 4 → Nat) ![0, 0, 0, 0] ![0, 0, 0, 0] S1x1x352x352
  h_S_ : 0 < S_.numel
  bcast_S1x1x88x88_S1x1x88x4x88_0_1_2_4 : S1x1x88x88.BroadcastsInDim S1x1x88x4x88 (![0, 1, 2, 4] : Fin 4 → Fin S1x1x88x4x88.rank)
  shapeCasts_S1x1x88x4x88_S1x1x352x88 : S1x1x88x4x88.ShapeCasts S1x1x352x88
  bcast_S1x1x352x88_S1x1x352x88x4_0_1_2_3 : S1x1x352x88.BroadcastsInDim S1x1x352x88x4 (![0, 1, 2, 3] : Fin 4 → Fin S1x1x352x88x4.rank)
  shapeCasts_S1x1x352x88x4_S1x1x352x352 : S1x1x352x88x4.ShapeCasts S1x1x352x352
  bcast_S1x1x44x44_S1x1x44x8x44_0_1_2_4 : S1x1x44x44.BroadcastsInDim S1x1x44x8x44 (![0, 1, 2, 4] : Fin 4 → Fin S1x1x44x8x44.rank)
  shapeCasts_S1x1x44x8x44_S1x1x352x44 : S1x1x44x8x44.ShapeCasts S1x1x352x44
  bcast_S1x1x352x44_S1x1x352x44x8_0_1_2_3 : S1x1x352x44.BroadcastsInDim S1x1x352x44x8 (![0, 1, 2, 3] : Fin 4 → Fin S1x1x352x44x8.rank)
  shapeCasts_S1x1x352x44x8_S1x1x352x352 : S1x1x352x44x8.ShapeCasts S1x1x352x352
  bcast_S1x1x22x22_S1x1x22x16x22_0_1_2_4 : S1x1x22x22.BroadcastsInDim S1x1x22x16x22 (![0, 1, 2, 4] : Fin 4 → Fin S1x1x22x16x22.rank)
  shapeCasts_S1x1x22x16x22_S1x1x352x22 : S1x1x22x16x22.ShapeCasts S1x1x352x22
  bcast_S1x1x352x22_S1x1x352x22x16_0_1_2_3 : S1x1x352x22.BroadcastsInDim S1x1x352x22x16 (![0, 1, 2, 3] : Fin 4 → Fin S1x1x352x22x16.rank)
  shapeCasts_S1x1x352x22x16_S1x1x352x352 : S1x1x352x22x16.ShapeCasts S1x1x352x352
  bcast_S1x1x11x11_S1x1x11x32x11_0_1_2_4 : S1x1x11x11.BroadcastsInDim S1x1x11x32x11 (![0, 1, 2, 4] : Fin 4 → Fin S1x1x11x32x11.rank)
  shapeCasts_S1x1x11x32x11_S1x1x352x11 : S1x1x11x32x11.ShapeCasts S1x1x352x11
  bcast_S1x1x352x11_S1x1x352x11x32_0_1_2_3 : S1x1x352x11.BroadcastsInDim S1x1x352x11x32 (![0, 1, 2, 3] : Fin 4 → Fin S1x1x352x11x32.rank)
  shapeCasts_S1x1x352x11x32_S1x1x352x352 : S1x1x352x11x32.ShapeCasts S1x1x352x352
  concatenates_S1x1x352x352_S1x1x352x352_S1x1x352x352_S1x1x352x352_S1x1x352x352_S1x1x352x352_S1x1x352x352_S1x1x352x352_S1x1x352x352_S1x1x352x352_S1x1x352x352_S1x1x352x352_S1x12x352x352_d1 : Shape.Concatenates [S1x1x352x352, S1x1x352x352, S1x1x352x352, S1x1x352x352, S1x1x352x352, S1x1x352x352, S1x1x352x352, S1x1x352x352, S1x1x352x352, S1x1x352x352, S1x1x352x352, S1x1x352x352] S1x12x352x352 1

variable [Facts₀]

class Facts : Prop extends Facts₀ where

variable [Facts]
-- ==== Proof.BitsBody.lean ====
import proofs.«171194_j21698174779469_1_alg».proof.Proof.Gen.Kernel.Launch
import proofs.«171194_j21698174779469_1_alg».proof.Proof.Gen.Kernel.Skeleton
import proofs.«171194_j21698174779469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Body

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rout : Rect S1x1x352x352 := Rect.unit (s := S1x1x352x352) ![0, 0, 0, 0] S1x1x352x352.size inb_S1x1x352x352_S1x1x352x352_0_0_0_0
abbrev rin176 : Rect S1x1x176x176 := Rect.unit (s := S1x1x176x176) ![0, 0, 0, 0] S1x1x176x176.size inb_S1x1x176x176_S1x1x176x176_0_0_0_0
abbrev rin88 : Rect S1x1x88x88 := Rect.unit (s := S1x1x88x88) ![0, 0, 0, 0] S1x1x88x88.size inb_S1x1x88x88_S1x1x88x88_0_0_0_0
abbrev rin44 : Rect S1x1x44x44 := Rect.unit (s := S1x1x44x44) ![0, 0, 0, 0] S1x1x44x44.size inb_S1x1x44x44_S1x1x44x44_0_0_0_0
abbrev rin22 : Rect S1x1x22x22 := Rect.unit (s := S1x1x22x22) ![0, 0, 0, 0] S1x1x22x22.size inb_S1x1x22x22_S1x1x22x22_0_0_0_0
abbrev rin11 : Rect S1x1x11x11 := Rect.unit (s := S1x1x11x11) ![0, 0, 0, 0] S1x1x11x11.size inb_S1x1x11x11_S1x1x11x11_0_0_0_0

-- The one store tiles the output buffer.
theorem cover (p0 : Vec F S1x1x352x352 .f32) (y : S1x1x352x352.Idx) :
    ∃ pc ∈ ([⟨rout, p0⟩] : List (View.Piece (Elt F) S1x1x352x352 .f32)), y ∈ pc.1.set :=
  View.cover_of_tiled [⟨rout, p0⟩] S1x1x352x352.size (by rfl) y

variable (c : Dev nD) (E : Set ℕ) (arg2 : Memref sig .tc .vmem S1x1x352x352 .f32) (harg2 : arg2.IsWhole)

/-- Program `e` reads `m0`, leaves it as it was, and leaves `out` of what it read in `m1`. -/
def Maps {S0 S1 : Shape} (E : Set ℕ) (e : Prog (TpuEff nD τ sig (Elt F) Λ₀ .tc) PUnit)
    (m0 : Memref sig .tc .vmem S0 .f32) (m1 : Memref sig .tc .vmem S1 .f32) (out : Vec F S0 .f32 → Vec F S1 .f32) : Prop :=
  ∀ f0 f1 (K : PUnit → sProp 𝕄),
    iprop((m0.view.loc (c : Thread nD τ) ↦[m0.view.set]{fullShare} f0) ∗ (m1.view.loc (c : Thread nD τ) ↦[m1.view.set]{fullShare} f1)
        ∗ (iprop((m0.view.loc (c : Thread nD τ) ↦[m0.view.set]{fullShare} f0)
            ∗ ∃ g, ⌜m1.view.read (Elt F) g = out (m0.view.read (Elt F) f0)⌝ ∗ (m1.view.loc (c : Thread nD τ) ↦[m1.view.set]{fullShare} g)) -∗ K ⟨⟩))
      ⊢ wp frame (wpE (defs₀ (F := F)) Variants.none c none) E e K

-- Such a program carries any frame `Φ ∗ O` across, whatever the output buffer held.
theorem Maps.body {S0 S1 : Shape} {e : Prog (TpuEff nD τ sig (Elt F) Λ₀ .tc) PUnit}
    {m0 : Memref sig .tc .vmem S0 .f32} {m1 : Memref sig .tc .vmem S1 .f32} {out : Vec F S0 .f32 → Vec F S1 .f32}
    (h : Maps c Set.univ e m0 m1 out) (Φ O : sProp 𝕄) {δ0 δ1 : Type} (b0 : δ0 → Vec F S0 .f32) (b1 : δ1 → Vec F S1 .f32)
    (a0 x0 : Vec F S0 .f32) (a1 : Vec F S1 .f32) (h0 : a0 = x0) (h1 : a1 = out x0) (hb : ∀ d, b0 d = x0) :
    iprop(Φ ∗ O ∗ (∃ d, owns (c : Thread nD τ) m0 fullShare (b0 d)) ∗ (∃ d, owns (c : Thread nD τ) m1 fullShare (b1 d)))
      ⊢ wp frame (wpE (defs₀ (F := F)) Variants.none c none) Set.univ e fun _ =>
        iprop(Φ ∗ O ∗ owns (c : Thread nD τ) m0 fullShare a0 ∗ owns (c : Thread nD τ) m1 fullShare a1) := by
  subst h0 h1
  simp only [hb]
  unfold owns
  iintro ⟨HΦ, Ho, ⟨%d0, %f0, %hf0, H0⟩, ⟨%d1, %f1, -, H1⟩⟩
  subst hf0
  iapply (h f0 f1 _)
  isplitl [H0]; · iexact H0
  isplitl [H1]; · iexact H1
  iintro ⟨H0, H1⟩
  isplitl [HΦ]; · iexact HΦ
  isplitl [Ho]; · iexact Ho
  isplitl [H0]
  · iexists f0; isplitr; · ipureintro; rfl
    iexact H0
  iexact H1

def iblk0 (w : Fin cfg0.W) (t : Fin cfg0.N) :=
  ((cfg0.win w).blk t).view.read (Elt F) (V c (Pipeline.arrRef spec0 w))

def out0_1 (x0 : Vec F S1x1x176x176 .f32) : Vec F S1x1x352x352 .f32 :=
  View.canon [⟨rout, k0_pay1 (View.ld x0 rin176)⟩]

set_option maxHeartbeats 1000000 in
theorem sound_kernel0 (i : grid0.Coords) (arg1 : Memref sig .tc .vmem S1x1x176x176 .f32) (harg1 : arg1.IsWhole) :
    Maps (F := F) c E (cc0__resize_kernel i arg1 harg1 arg2 harg2) arg1 arg2 out0_1 := fun f0 f1 K => by
  simp only [cc0__resize_kernel_eq_skeleton]; unfold cc0__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat0 : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (w : Fin cfg0.W) : (dat0 V c).A w = V c (Pipeline.arrRef spec0 w) := by dsimp only [dat0]
theorem after0_0 (t : Fin cfg0.N) : (dat0 V c).after 0 t = iblk0 V c 0 t := by dsimp only [dat0]
theorem after0_1 (t : Fin cfg0.N) : (dat0 V c).after 1 t = out0_1 (iblk0 V c 0 t) := by dsimp only [dat0]

theorem body_obligation0 : BodyObligation (dat0 V c) defs₀ Variants.none () Set.univ := fun t => by
  rw [bigSep_W0, bigSep_W0]
  exact Maps.body c (e := bodyAt0 t) (sound_kernel0 c _ _ _ _ _ _) _ _ _ _ _ _ _ (after0_0 V c t) (after0_1 V c t)
    fun d => (dat0 V c).before_fetched 0 t (fetch0_0 t) d

def iblk1 (w : Fin cfg1.W) (t : Fin cfg1.N) :=
  ((cfg1.win w).blk t).view.read (Elt F) (V c (Pipeline.arrRef spec1 w))

def out1_1 (x0 : Vec F S1x1x88x88 .f32) : Vec F S1x1x352x352 .f32 :=
  View.canon [⟨rout, k1_pay1 (View.ld x0 rin88)⟩]

set_option maxHeartbeats 1000000 in
theorem sound_kernel1 (i : grid1.Coords) (arg1 : Memref sig .tc .vmem S1x1x88x88 .f32) (harg1 : arg1.IsWhole) :
    Maps (F := F) c E (cc1__resize_kernel i arg1 harg1 arg2 harg2) arg1 arg2 out1_1 := fun f0 f1 K => by
  simp only [cc1__resize_kernel_eq_skeleton]; unfold cc1__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat1 : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (w : Fin cfg1.W) : (dat1 V c).A w = V c (Pipeline.arrRef spec1 w) := by dsimp only [dat1]
theorem after1_0 (t : Fin cfg1.N) : (dat1 V c).after 0 t = iblk1 V c 0 t := by dsimp only [dat1]
theorem after1_1 (t : Fin cfg1.N) : (dat1 V c).after 1 t = out1_1 (iblk1 V c 0 t) := by dsimp only [dat1]

theorem body_obligation1 : BodyObligation (dat1 V c) defs₀ Variants.none () Set.univ := fun t => by
  rw [bigSep_W1, bigSep_W1]
  exact Maps.body c (e := bodyAt1 t) (sound_kernel1 c _ _ _ _ _ _) _ _ _ _ _ _ _ (after1_0 V c t) (after1_1 V c t)
    fun d => (dat1 V c).before_fetched 0 t (fetch1_0 t) d

def iblk2 (w : Fin cfg2.W) (t : Fin cfg2.N) :=
  ((cfg2.win w).blk t).view.read (Elt F) (V c (Pipeline.arrRef spec2 w))

def out2_1 (x0 : Vec F S1x1x44x44 .f32) : Vec F S1x1x352x352 .f32 :=
  View.canon [⟨rout, k2_pay1 (View.ld x0 rin44)⟩]

set_option maxHeartbeats 1000000 in
theorem sound_kernel2 (i : grid2.Coords) (arg1 : Memref sig .tc .vmem S1x1x44x44 .f32) (harg1 : arg1.IsWhole) :
    Maps (F := F) c E (cc2__resize_kernel i arg1 harg1 arg2 harg2) arg1 arg2 out2_1 := fun f0 f1 K => by
  simp only [cc2__resize_kernel_eq_skeleton]; unfold cc2__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat2 : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (w : Fin cfg2.W) : (dat2 V c).A w = V c (Pipeline.arrRef spec2 w) := by dsimp only [dat2]
theorem after2_0 (t : Fin cfg2.N) : (dat2 V c).after 0 t = iblk2 V c 0 t := by dsimp only [dat2]
theorem after2_1 (t : Fin cfg2.N) : (dat2 V c).after 1 t = out2_1 (iblk2 V c 0 t) := by dsimp only [dat2]

theorem body_obligation2 : BodyObligation (dat2 V c) defs₀ Variants.none () Set.univ := fun t => by
  rw [bigSep_W2, bigSep_W2]
  exact Maps.body c (e := bodyAt2 t) (sound_kernel2 c _ _ _ _ _ _) _ _ _ _ _ _ _ (after2_0 V c t) (after2_1 V c t)
    fun d => (dat2 V c).before_fetched 0 t (fetch2_0 t) d

def iblk3 (w : Fin cfg3.W) (t : Fin cfg3.N) :=
  ((cfg3.win w).blk t).view.read (Elt F) (V c (Pipeline.arrRef spec3 w))

def out3_1 (x0 : Vec F S1x1x22x22 .f32) : Vec F S1x1x352x352 .f32 :=
  View.canon [⟨rout, k3_pay1 (View.ld x0 rin22)⟩]

set_option maxHeartbeats 1000000 in
theorem sound_kernel3 (i : grid3.Coords) (arg1 : Memref sig .tc .vmem S1x1x22x22 .f32) (harg1 : arg1.IsWhole) :
    Maps (F := F) c E (cc3__resize_kernel i arg1 harg1 arg2 harg2) arg1 arg2 out3_1 := fun f0 f1 K => by
  simp only [cc3__resize_kernel_eq_skeleton]; unfold cc3__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat3 : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (w : Fin cfg3.W) : (dat3 V c).A w = V c (Pipeline.arrRef spec3 w) := by dsimp only [dat3]
theorem after3_0 (t : Fin cfg3.N) : (dat3 V c).after 0 t = iblk3 V c 0 t := by dsimp only [dat3]
theorem after3_1 (t : Fin cfg3.N) : (dat3 V c).after 1 t = out3_1 (iblk3 V c 0 t) := by dsimp only [dat3]

theorem body_obligation3 : BodyObligation (dat3 V c) defs₀ Variants.none () Set.univ := fun t => by
  rw [bigSep_W3, bigSep_W3]
  exact Maps.body c (e := bodyAt3 t) (sound_kernel3 c _ _ _ _ _ _) _ _ _ _ _ _ _ (after3_0 V c t) (after3_1 V c t)
    fun d => (dat3 V c).before_fetched 0 t (fetch3_0 t) d

def iblk4 (w : Fin cfg4.W) (t : Fin cfg4.N) :=
  ((cfg4.win w).blk t).view.read (Elt F) (V c (Pipeline.arrRef spec4 w))

def out4_1 (x0 : Vec F S1x1x11x11 .f32) : Vec F S1x1x352x352 .f32 :=
  View.canon [⟨rout, k4_pay1 (View.ld x0 rin11)⟩]

set_option maxHeartbeats 1000000 in
theorem sound_kernel4 (i : grid4.Coords) (arg1 : Memref sig .tc .vmem S1x1x11x11 .f32) (harg1 : arg1.IsWhole) :
    Maps (F := F) c E (cc4__resize_kernel i arg1 harg1 arg2 harg2) arg1 arg2 out4_1 := fun f0 f1 K => by
  simp only [cc4__resize_kernel_eq_skeleton]; unfold cc4__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat4 : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (w : Fin cfg4.W) : (dat4 V c).A w = V c (Pipeline.arrRef spec4 w) := by dsimp only [dat4]
theorem after4_0 (t : Fin cfg4.N) : (dat4 V c).after 0 t = iblk4 V c 0 t := by dsimp only [dat4]
theorem after4_1 (t : Fin cfg4.N) : (dat4 V c).after 1 t = out4_1 (iblk4 V c 0 t) := by dsimp only [dat4]

theorem body_obligation4 : BodyObligation (dat4 V c) defs₀ Variants.none () Set.univ := fun t => by
  rw [bigSep_W4, bigSep_W4]
  exact Maps.body c (e := bodyAt4 t) (sound_kernel4 c _ _ _ _ _ _) _ _ _ _ _ _ _ (after4_0 V c t) (after4_1 V c t)
    fun d => (dat4 V c).before_fetched 0 t (fetch4_0 t) d

def iblk5 (w : Fin cfg5.W) (t : Fin cfg5.N) :=
  ((cfg5.win w).blk t).view.read (Elt F) (V c (Pipeline.arrRef spec5 w))

def out5_1 (x0 : Vec F S1x1x176x176 .f32) : Vec F S1x1x352x352 .f32 :=
  View.canon [⟨rout, k5_pay1 (View.ld x0 rin176)⟩]

theorem sound_kernel5 (i : grid5.Coords) (arg1 : Memref sig .tc .vmem S1x1x176x176 .f32) (harg1 : arg1.IsWhole) :
    Maps (F := F) c E (cc5__resize_kernel i arg1 harg1 arg2 harg2) arg1 arg2 out5_1 :=
  sound_kernel0 c E arg2 harg2 i arg1 harg1

def dat5 : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (w : Fin cfg5.W) : (dat5 V c).A w = V c (Pipeline.arrRef spec5 w) := by dsimp only [dat5]
theorem after5_0 (t : Fin cfg5.N) : (dat5 V c).after 0 t = iblk5 V c 0 t := by dsimp only [dat5]
theorem after5_1 (t : Fin cfg5.N) : (dat5 V c).after 1 t = out5_1 (iblk5 V c 0 t) := by dsimp only [dat5]

theorem body_obligation5 : BodyObligation (dat5 V c) defs₀ Variants.none () Set.univ := fun t => by
  rw [bigSep_W5, bigSep_W5]
  exact Maps.body c (e := bodyAt5 t) (sound_kernel5 c _ _ _ _ _ _) _ _ _ _ _ _ _ (after5_0 V c t) (after5_1 V c t)
    fun d => (dat5 V c).before_fetched 0 t (fetch5_0 t) d

def iblk6 (w : Fin cfg6.W) (t : Fin cfg6.N) :=
  ((cfg6.win w).blk t).view.read (Elt F) (V c (Pipeline.arrRef spec6 w))

def out6_1 (x0 : Vec F S1x1x88x88 .f32) : Vec F S1x1x352x352 .f32 :=
  View.canon [⟨rout, k6_pay1 (View.ld x0 rin88)⟩]

theorem sound_kernel6 (i : grid6.Coords) (arg1 : Memref sig .tc .vmem S1x1x88x88 .f32) (harg1 : arg1.IsWhole) :
    Maps (F := F) c E (cc6__resize_kernel i arg1 harg1 arg2 harg2) arg1 arg2 out6_1 :=
  sound_kernel1 c E arg2 harg2 i arg1 harg1

def dat6 : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (w : Fin cfg6.W) : (dat6 V c).A w = V c (Pipeline.arrRef spec6 w) := by dsimp only [dat6]
theorem after6_0 (t : Fin cfg6.N) : (dat6 V c).after 0 t = iblk6 V c 0 t := by dsimp only [dat6]
theorem after6_1 (t : Fin cfg6.N) : (dat6 V c).after 1 t = out6_1 (iblk6 V c 0 t) := by dsimp only [dat6]

theorem body_obligation6 : BodyObligation (dat6 V c) defs₀ Variants.none () Set.univ := fun t => by
  rw [bigSep_W6, bigSep_W6]
  exact Maps.body c (e := bodyAt6 t) (sound_kernel6 c _ _ _ _ _ _) _ _ _ _ _ _ _ (after6_0 V c t) (after6_1 V c t)
    fun d => (dat6 V c).before_fetched 0 t (fetch6_0 t) d

def iblk7 (w : Fin cfg7.W) (t : Fin cfg7.N) :=
  ((cfg7.win w).blk t).view.read (Elt F) (V c (Pipeline.arrRef spec7 w))

def out7_1 (x0 : Vec F S1x1x44x44 .f32) : Vec F S1x1x352x352 .f32 :=
  View.canon [⟨rout, k7_pay1 (View.ld x0 rin44)⟩]

theorem sound_kernel7 (i : grid7.Coords) (arg1 : Memref sig .tc .vmem S1x1x44x44 .f32) (harg1 : arg1.IsWhole) :
    Maps (F := F) c E (cc7__resize_kernel i arg1 harg1 arg2 harg2) arg1 arg2 out7_1 :=
  sound_kernel2 c E arg2 harg2 i arg1 harg1

def dat7 : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (w : Fin cfg7.W) : (dat7 V c).A w = V c (Pipeline.arrRef spec7 w) := by dsimp only [dat7]
theorem after7_0 (t : Fin cfg7.N) : (dat7 V c).after 0 t = iblk7 V c 0 t := by dsimp only [dat7]
theorem after7_1 (t : Fin cfg7.N) : (dat7 V c).after 1 t = out7_1 (iblk7 V c 0 t) := by dsimp only [dat7]

theorem body_obligation7 : BodyObligation (dat7 V c) defs₀ Variants.none () Set.univ := fun t => by
  rw [bigSep_W7, bigSep_W7]
  exact Maps.body c (e := bodyAt7 t) (sound_kernel7 c _ _ _ _ _ _) _ _ _ _ _ _ _ (after7_0 V c t) (after7_1 V c t)
    fun d => (dat7 V c).before_fetched 0 t (fetch7_0 t) d

def iblk8 (w : Fin cfg8.W) (t : Fin cfg8.N) :=
  ((cfg8.win w).blk t).view.read (Elt F) (V c (Pipeline.arrRef spec8 w))

def out8_1 (x0 : Vec F S1x1x22x22 .f32) : Vec F S1x1x352x352 .f32 :=
  View.canon [⟨rout, k8_pay1 (View.ld x0 rin22)⟩]

theorem sound_kernel8 (i : grid8.Coords) (arg1 : Memref sig .tc .vmem S1x1x22x22 .f32) (harg1 : arg1.IsWhole) :
    Maps (F := F) c E (cc8__resize_kernel i arg1 harg1 arg2 harg2) arg1 arg2 out8_1 :=
  sound_kernel3 c E arg2 harg2 i arg1 harg1

def dat8 : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (w : Fin cfg8.W) : (dat8 V c).A w = V c (Pipeline.arrRef spec8 w) := by dsimp only [dat8]
theorem after8_0 (t : Fin cfg8.N) : (dat8 V c).after 0 t = iblk8 V c 0 t := by dsimp only [dat8]
theorem after8_1 (t : Fin cfg8.N) : (dat8 V c).after 1 t = out8_1 (iblk8 V c 0 t) := by dsimp only [dat8]

theorem body_obligation8 : BodyObligation (dat8 V c) defs₀ Variants.none () Set.univ := fun t => by
  rw [bigSep_W8, bigSep_W8]
  exact Maps.body c (e := bodyAt8 t) (sound_kernel8 c _ _ _ _ _ _) _ _ _ _ _ _ _ (after8_0 V c t) (after8_1 V c t)
    fun d => (dat8 V c).before_fetched 0 t (fetch8_0 t) d

def iblk9 (w : Fin cfg9.W) (t : Fin cfg9.N) :=
  ((cfg9.win w).blk t).view.read (Elt F) (V c (Pipeline.arrRef spec9 w))

def out9_1 (x0 : Vec F S1x1x11x11 .f32) : Vec F S1x1x352x352 .f32 :=
  View.canon [⟨rout, k9_pay1 (View.ld x0 rin11)⟩]

theorem sound_kernel9 (i : grid9.Coords) (arg1 : Memref sig .tc .vmem S1x1x11x11 .f32) (harg1 : arg1.IsWhole) :
    Maps (F := F) c E (cc9__resize_kernel i arg1 harg1 arg2 harg2) arg1 arg2 out9_1 :=
  sound_kernel4 c E arg2 harg2 i arg1 harg1

def dat9 : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (w : Fin cfg9.W) : (dat9 V c).A w = V c (Pipeline.arrRef spec9 w) := by dsimp only [dat9]
theorem after9_0 (t : Fin cfg9.N) : (dat9 V c).after 0 t = iblk9 V c 0 t := by dsimp only [dat9]
theorem after9_1 (t : Fin cfg9.N) : (dat9 V c).after 1 t = out9_1 (iblk9 V c 0 t) := by dsimp only [dat9]

theorem body_obligation9 : BodyObligation (dat9 V c) defs₀ Variants.none () Set.univ := fun t => by
  rw [bigSep_W9, bigSep_W9]
  exact Maps.body c (e := bodyAt9 t) (sound_kernel9 c _ _ _ _ _ _) _ _ _ _ _ _ _ (after9_0 V c t) (after9_1 V c t)
    fun d => (dat9 V c).before_fetched 0 t (fetch9_0 t) d

def iblk10 (w : Fin cfg10.W) (t : Fin cfg10.N) :=
  ((cfg10.win w).blk t).view.read (Elt F) (V c (Pipeline.arrRef spec10 w))

def out10_1 (x0 : Vec F S1x1x176x176 .f32) : Vec F S1x1x352x352 .f32 :=
  View.canon [⟨rout, k10_pay1 (View.ld x0 rin176)⟩]

theorem sound_kernel10 (i : grid10.Coords) (arg1 : Memref sig .tc .vmem S1x1x176x176 .f32) (harg1 : arg1.IsWhole) :
    Maps (F := F) c E (cc10__resize_kernel i arg1 harg1 arg2 harg2) arg1 arg2 out10_1 :=
  sound_kernel0 c E arg2 harg2 i arg1 harg1

def dat10 : Dat τ (Elt F) Unit ℕ (UR sig nD τ) ℕ cfg10 c where
  A w := V c (Pipeline.arrRef spec10 w)
  after w t := match w with
    | ⟨0, _⟩ => iblk10 V c 0 t
    | ⟨1, _⟩ => out10_1 (iblk10 V c 0 t)
  Φ _ := Pipeline.ΦA spec10 c
  q _ := fullShare
  owed _ := 0

theorem A_eq10 (w : Fin cfg10.W) : (dat10 V c).A w = V c (Pipeline.arrRef spec10 w) := by dsimp only [dat10]
theorem after10_0 (t : Fin cfg10.N) : (dat10 V c).after 0 t = iblk10 V c 0 t := by dsimp only [dat10]
theorem after10_1 (t : Fin cfg10.N) : (dat10 V c).after 1 t = out10_1 (iblk10 V c 0 t) := by dsimp only [dat10]

theorem body_obligation10 : BodyObligation (dat10 V c) defs₀ Variants.none () Set.univ := fun t => by
  rw [bigSep_W10, bigSep_W10]
  exact Maps.body c (e := bodyAt10 t) (sound_kernel10 c _ _ _ _ _ _) _ _ _ _ _ _ _ (after10_0 V c t) (after10_1 V c t)
    fun d => (dat10 V c).before_fetched 0 t (fetch10_0 t) d

end Cert.Kernel.Body

end
-- ==== Proof.BitsFold.lean ====
import proofs.«171194_j21698174779469_1_alg».proof.Proof.BitsBody

noncomputable section

namespace Cert.Kernel.Fold

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def dats : (p : Fin 11) → ((c : Dev nD) → (b : Ref sig .tc) → Buf (Elt F) ((c : Thread nD τ).loc b)) → (c : Dev nD) →
    Dat τ (Elt F) Unit ℕ (UR sig nD τ) ℕ (cfgs p) c
  | ⟨0, _⟩ => dat0
  | ⟨1, _⟩ => dat1
  | ⟨2, _⟩ => dat2
  | ⟨3, _⟩ => dat3
  | ⟨4, _⟩ => dat4
  | ⟨5, _⟩ => dat5
  | ⟨6, _⟩ => dat6
  | ⟨7, _⟩ => dat7
  | ⟨8, _⟩ => dat8
  | ⟨9, _⟩ => dat9
  | ⟨10, _⟩ => dat10

theorem launches : ∀ p : Fin 11, Pipeline.LaunchFacts (nD := nD) (τ := τ) cfgs p
  | ⟨0, _⟩ => launch0
  | ⟨1, _⟩ => launch1
  | ⟨2, _⟩ => launch2
  | ⟨3, _⟩ => launch3
  | ⟨4, _⟩ => launch4
  | ⟨5, _⟩ => launch5
  | ⟨6, _⟩ => launch6
  | ⟨7, _⟩ => launch7
  | ⟨8, _⟩ => launch8
  | ⟨9, _⟩ => launch9
  | ⟨10, _⟩ => launch10

theorem dats_plain : ∀ (p : Fin 11) (V : (c : Dev nD) → (b : Ref sig .tc) → Buf (Elt F) ((c : Thread nD τ).loc b)) (c : Dev nD),
    (∀ t, (dats (F := F) p V c).Φ t = Pipeline.ΦA (cfgs p).spec c) ∧ (∀ w, (dats (F := F) p V c).q w = fullShare)
      ∧ (∀ t, (dats (F := F) p V c).owed t = 0) ∧ (∀ t, (dats (F := F) p V c).recorded t = Set.univ)
      ∧ ∀ w, (dats (F := F) p V c).A w = V c (Pipeline.arrRef (cfgs p).spec w)
  | ⟨0, _⟩ => fun _ _ => ⟨fun _ => rfl, fun _ => rfl, fun _ => rfl, fun _ => rfl, fun _ => rfl⟩
  | ⟨1, _⟩ => fun _ _ => ⟨fun _ => rfl, fun _ => rfl, fun _ => rfl, fun _ => rfl, fun _ => rfl⟩
  | ⟨2, _⟩ => fun _ _ => ⟨fun _ => rfl, fun _ => rfl, fun _ => rfl, fun _ => rfl, fun _ => rfl⟩
  | ⟨3, _⟩ => fun _ _ => ⟨fun _ => rfl, fun _ => rfl, fun _ => rfl, fun _ => rfl, fun _ => rfl⟩
  | ⟨4, _⟩ => fun _ _ => ⟨fun _ => rfl, fun _ => rfl, fun _ => rfl, fun _ => rfl, fun _ => rfl⟩
  | ⟨5, _⟩ => fun _ _ => ⟨fun _ => rfl, fun _ => rfl, fun _ => rfl, fun _ => rfl, fun _ => rfl⟩
  | ⟨6, _⟩ => fun _ _ => ⟨fun _ => rfl, fun _ => rfl, fun _ => rfl, fun _ => rfl, fun _ => rfl⟩
  | ⟨7, _⟩ => fun _ _ => ⟨fun _ => rfl, fun _ => rfl, fun _ => rfl, fun _ => rfl, fun _ => rfl⟩
  | ⟨8, _⟩ => fun _ _ => ⟨fun _ => rfl, fun _ => rfl, fun _ => rfl, fun _ => rfl, fun _ => rfl⟩
  | ⟨9, _⟩ => fun _ _ => ⟨fun _ => rfl, fun _ => rfl, fun _ => rfl, fun _ => rfl, fun _ => rfl⟩
  | ⟨10, _⟩ => fun _ _ => ⟨fun _ => rfl, fun _ => rfl, fun _ => rfl, fun _ => rfl, fun _ => rfl⟩

variable (m : (ℓ : Loc nD τ sig) → Buf (Elt F) ℓ) (ρ : Dev nD → PrngReg)

/-- The buffers after the first `k` regions: region `k` replaces its own two arrays and nothing else. -/
def Wn : ℕ → Dev nD → Valuation τ sig (Elt F)
  | 0 => fun c b => (s₀ m ρ).mem ((c : Dev nD), b)
  | k + 1 => fun c => if h : k < 11 then
      Pipeline.withArrays (cfgs ⟨k, h⟩).spec c (Wn k c) fun w => (dats ⟨k, h⟩ (fun c b => Wn k c b) c).arrAt w (cfgs ⟨k, h⟩).N
    else Wn k c

abbrev W12 : Dev nD → Valuation τ sig (Elt F) := fun c => StableHlo.after hostOps11 (Wn m ρ 11 c)

abbrev adm : (p : Fin 11) → (pcfgs (F := F) p).Adm := fun p => (cfgs p).toPCfg_adm

abbrev pdats (p : Fin 11) (c : Dev nD) : Dat τ (Elt F) Unit ℕ (UR sig nD τ) ℕ (Pipeline.pin (pcfgs (F := F)) adm p) c :=
  dats p (fun c b => Wn m ρ p c b) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem hostOps11_fresh : (hostOps11 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

end Cert.Kernel.Fold

end
-- ==== Proof.BitsSegs.lean ====
import proofs.«171194_j21698174779469_1_alg».proof.Proof.BitsFold

noncomputable section

namespace Cert.Kernel.Segs

open Cert.Kernel Cert.Kernel.Gen Cert.Kernel.Body Cert.Kernel.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- One record for all eleven regions: each only replaces its own two arrays in the buffers it is entered with. -/
def regOf (p : Fin 11) (lf : Pipeline.LaunchFacts (nD := nD) (τ := τ) cfgs p) (Wi : Dev nD → Valuation τ sig (Elt F))
    (hbody : ∀ c, BodyObligation (pdats m ρ p c) (defs₀ (F := F)) Variants.none () Set.univ)
    (hΦ : ∀ c t, (pdats m ρ p c).Φ t = Pipeline.ΦA (cfgs p).spec c)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Wi c (Proc.devRef .tc (Pipeline.arrRef (cfgs p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hF : ∀ w, (pdats m ρ p c).arrAt w (cfgs p).N = Pipeline.withArrays (cfgs p).spec c (Wi c)
        (fun w => (pdats m ρ p c).arrAt w (cfgs p).N) (Proc.devRef .tc (Pipeline.arrRef (cfgs p).spec w)) :=
      fun w => (Pipeline.withArrays_arr (cfgs p).spec lf.win.arr_inj c (Wi c) (fun w => (pdats m ρ p c).arrAt w (cfgs p).N) w).symm
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b)
      ((pdats m ρ p c).arrAt · (cfgs p).N) hF
      (fun b hb => Pipeline.withArrays_of_ne (cfgs p).spec c (Wi c) _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

theorem hbodies : ∀ (p : Fin 11) (V : (c : Dev nD) → (b : Ref sig .tc) → Buf (Elt F) ((c : Thread nD τ).loc b)) (c : Dev nD),
    BodyObligation (dats (F := F) p V c) (defs₀ (F := F)) Variants.none () Set.univ
  | ⟨0, _⟩ => body_obligation0
  | ⟨1, _⟩ => body_obligation1
  | ⟨2, _⟩ => body_obligation2
  | ⟨3, _⟩ => body_obligation3
  | ⟨4, _⟩ => body_obligation4
  | ⟨5, _⟩ => body_obligation5
  | ⟨6, _⟩ => body_obligation6
  | ⟨7, _⟩ => body_obligation7
  | ⟨8, _⟩ => body_obligation8
  | ⟨9, _⟩ => body_obligation9
  | ⟨10, _⟩ => body_obligation10

def reg (p : Fin 11) := regOf m ρ p (launches p) (Wn m ρ p) (fun c => hbodies p _ c) (fun c => (dats_plain p _ c).1)
  (fun c => (dats_plain p _ c).2.1) (fun c => (dats_plain p _ c).2.2.1) (fun c => (dats_plain p _ c).2.2.2.1) (fun c => (dats_plain p _ c).2.2.2.2)

end Cert.Kernel.Segs

end
-- ==== Proof.BitsRun.lean ====
import proofs.«171194_j21698174779469_1_alg».proof.Proof.BitsSegs

noncomputable section

namespace Cert.Kernel.Run

open Cert.Kernel Cert.Kernel.Gen Cert.Kernel.Body Cert.Kernel.Fold Cert.Kernel.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev joinSeg : Pipeline.HostSeg (Name := ℕ) (U := UR sig nD τ) (pcfgs (F := F)) defs₀ 𝒱₀ L lv :=
  Pipeline.HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (Wn m ρ 11) R

abbrev segs : List (Pipeline.Seg (pcfgs (F := F)) adm (pdats m ρ) () defs₀ 𝒱₀ L lv) :=
  [ .region (reg m ρ 0),
    .region (reg m ρ 1),
    .region (reg m ρ 2),
    .region (reg m ρ 3),
    .region (reg m ρ 4),
    .region (reg m ρ 5),
    .region (reg m ρ 6),
    .region (reg m ρ 7),
    .region (reg m ρ 8),
    .region (reg m ρ 9),
    .region (reg m ρ 10),
    .host (joinSeg m ρ) ]

theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wn m ρ 0 c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (StableHlo.after hostOps11 (Wn m ρ 11 c)) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Wn m ρ 0 c)
        from Pipeline.unscopedBufs_held c (Wn m ρ 0 c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Run

end
-- ==== Proof.BitsRead.lean ====
import proofs.«171194_j21698174779469_1_alg».proof.Proof.BitsFold
import Idealize.ShloMosaic.Lib.StableHlo.Run

noncomputable section

namespace Cert.Kernel.Readback

open Cert.Kernel Cert.Kernel.Gen Cert.Kernel.Body Cert.Kernel.Fold
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Region `p` writes no array but those of its output windows. -/
abbrev Untouched (p : Fin 11) (b : Ref sig .tc) : Prop :=
  ∀ w, ((cfgs p).win w).isOut = true → Pipeline.arrRef (cfgs p).spec w ≠ b

theorem Wn_arr (k : ℕ) (h : k < 11) (c : Dev nD) (w : Fin (cfgs ⟨k, h⟩).W) :
    Wn m ρ (k + 1) c (Proc.devRef .tc (Pipeline.arrRef (cfgs ⟨k, h⟩).spec w))
      = (dats ⟨k, h⟩ (fun c b => Wn m ρ k c b) c).arrAt w (cfgs ⟨k, h⟩).N := by
  simp only [Wn, dif_pos h]
  exact Pipeline.withArrays_arr (cfgs ⟨k, h⟩).spec (launches ⟨k, h⟩).win.arr_inj c _ _ w

/-- An input window's array ends as it started, and an array of no window is not touched at all. -/
theorem Wn_succ (k : ℕ) (h : k < 11) (c : Dev nD) (b : Ref sig .tc) (hb : Untouched ⟨k, h⟩ b) :
    Wn m ρ (k + 1) c (Proc.devRef .tc b) = Wn m ρ k c (Proc.devRef .tc b) := by
  by_cases hw : ∃ w, Pipeline.arrRef (cfgs ⟨k, h⟩).spec w = b
  · obtain ⟨w, rfl⟩ := hw
    have hin : ((cfgs ⟨k, h⟩).win w).isOut = false := by
      cases e : ((cfgs ⟨k, h⟩).win w).isOut
      · rfl
      · exact absurd rfl (hb w e)
    exact (Wn_arr m ρ k h c w).trans (((dats ⟨k, h⟩ _ c).arrAt_in w hin _).trans ((dats_plain ⟨k, h⟩ _ c).2.2.2.2 w))
  · simp only [Wn, dif_pos h]
    exact Pipeline.withArrays_of_ne (cfgs ⟨k, h⟩).spec c _ _ b fun w e => hw ⟨w, e⟩

/-- The contents of `b` do not change along a stretch of regions none of which writes it. -/
theorem Wn_of_le (j : ℕ) (c : Dev nD) (b : Ref sig .tc) : ∀ k, j ≤ k → k ≤ 11 →
    (∀ p : Fin 11, j ≤ p.val → p.val < k → Untouched p b) → Wn m ρ k c (Proc.devRef .tc b) = Wn m ρ j c (Proc.devRef .tc b)
  | 0, hj, _, _ => by rw [Nat.le_zero.mp hj]
  | k + 1, hj, hk, hb => by
    rcases Nat.lt_or_ge j (k + 1) with hlt | hge
    · exact (Wn_succ m ρ k hk c b (hb ⟨k, hk⟩ (Nat.lt_succ_iff.mp hlt) (Nat.lt_succ_self k))).trans
        (Wn_of_le j c b k (Nat.lt_succ_iff.mp hlt) (Nat.le_of_lt hk) fun p h1 h2 => hb p h1 (Nat.lt_succ_of_lt h2))
    · rw [Nat.le_antisymm hj hge]

theorem W12_keep (c : Dev nD) (b : Ref sig .tc) (hb : b ≠ main_v11) :
    W12 m ρ c (Proc.devRef .tc b) = Wn m ρ 11 c (Proc.devRef .tc b) :=
  StableHlo.after_of_forall_not_mem (b := Proc.devRef .tc b) _ _ (List.forall_iff_forall_mem.mp (by
    simp only [hostOps11, List.Forall, StableHlo.nary_writes, Finset.mem_singleton]
    exact StableHlo.devRef_ne_of_ne hb))

/-- A buffer that nothing writes ends as launched. -/
theorem kept (c : Dev nD) (b : Ref sig .tc) (hb : b ≠ main_v11) (h : ∀ p : Fin 11, 0 ≤ p.val → p.val < 11 → Untouched p b) :
    W12 m ρ c (Proc.devRef .tc b) = m ((c : Thread nD τ).loc b) :=
  (W12_keep m ρ c b hb).trans (Wn_of_le m ρ 0 c b 11 (Nat.zero_le _) (Nat.le_refl _) h)

theorem kept_mem (c : Dev nD) {mem : (ℓ : Loc nD τ sig) → Buf (Elt F) ℓ}
    (h : ∀ b ∈ Pipeline.ucRefs τ sig, mem (((c : Thread nD τ)).1, b) = W12 m ρ c b) (b : Ref sig .tc)
    (hs : ¬ (Proc.devRef .tc b : DevRef τ sig).isScoped) (hb : b ≠ main_v11) (hu : ∀ p : Fin 11, 0 ≤ p.val → p.val < 11 → Untouched p b) :
    mem ((c : Thread nD τ).loc b) = m ((c : Thread nD τ).loc b) :=
  (h _ (mem_uc b hs)).trans (kept m ρ c b hb hu)

end Cert.Kernel.Readback

end
-- ==== Proof.IdealBody.lean ====
import proofs.«171194_j21698174779469_1_alg».proof.Proof.Gen.KernelIdeal.Launch
import proofs.«171194_j21698174779469_1_alg».proof.Proof.Gen.KernelIdeal.Skeleton
import proofs.«171194_j21698174779469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rout : Rect S1x1x352x352 := Rect.unit (s := S1x1x352x352) ![0, 0, 0, 0] S1x1x352x352.size inb_S1x1x352x352_S1x1x352x352_0_0_0_0
abbrev rin176 : Rect S1x1x176x176 := Rect.unit (s := S1x1x176x176) ![0, 0, 0, 0] S1x1x176x176.size inb_S1x1x176x176_S1x1x176x176_0_0_0_0
abbrev rin88 : Rect S1x1x88x88 := Rect.unit (s := S1x1x88x88) ![0, 0, 0, 0] S1x1x88x88.size inb_S1x1x88x88_S1x1x88x88_0_0_0_0
abbrev rin44 : Rect S1x1x44x44 := Rect.unit (s := S1x1x44x44) ![0, 0, 0, 0] S1x1x44x44.size inb_S1x1x44x44_S1x1x44x44_0_0_0_0
abbrev rin22 : Rect S1x1x22x22 := Rect.unit (s := S1x1x22x22) ![0, 0, 0, 0] S1x1x22x22.size inb_S1x1x22x22_S1x1x22x22_0_0_0_0
abbrev rin11 : Rect S1x1x11x11 := Rect.unit (s := S1x1x11x11) ![0, 0, 0, 0] S1x1x11x11.size inb_S1x1x11x11_S1x1x11x11_0_0_0_0

-- The one store tiles the output buffer.
theorem cover (p0 : Vec F S1x1x352x352 .f32) (y : S1x1x352x352.Idx) :
    ∃ pc ∈ ([⟨rout, p0⟩] : List (View.Piece (Elt F) S1x1x352x352 .f32)), y ∈ pc.1.set :=
  View.cover_of_tiled [⟨rout, p0⟩] S1x1x352x352.size (by rfl) y

variable (c : Dev nD) (E : Set ℕ) (arg2 : Memref sig .tc .vmem S1x1x352x352 .f32) (harg2 : arg2.IsWhole)

/-- Program `e` reads `m0`, leaves it as it was, and leaves `out` of what it read in `m1`. -/
def Maps {S0 S1 : Shape} (E : Set ℕ) (e : Prog (TpuEff nD τ sig (Elt F) Λ₀ .tc) PUnit)
    (m0 : Memref sig .tc .vmem S0 .f32) (m1 : Memref sig .tc .vmem S1 .f32) (out : Vec F S0 .f32 → Vec F S1 .f32) : Prop :=
  ∀ f0 f1 (K : PUnit → sProp 𝕄),
    iprop((m0.view.loc (c : Thread nD τ) ↦[m0.view.set]{fullShare} f0) ∗ (m1.view.loc (c : Thread nD τ) ↦[m1.view.set]{fullShare} f1)
        ∗ (iprop((m0.view.loc (c : Thread nD τ) ↦[m0.view.set]{fullShare} f0)
            ∗ ∃ g, ⌜m1.view.read (Elt F) g = out (m0.view.read (Elt F) f0)⌝ ∗ (m1.view.loc (c : Thread nD τ) ↦[m1.view.set]{fullShare} g)) -∗ K ⟨⟩))
      ⊢ wp frame (wpE (defs₀ (F := F)) Variants.none c none) E e K

-- Such a program carries any frame `Φ ∗ O` across, whatever the output buffer held.
theorem Maps.body {S0 S1 : Shape} {e : Prog (TpuEff nD τ sig (Elt F) Λ₀ .tc) PUnit}
    {m0 : Memref sig .tc .vmem S0 .f32} {m1 : Memref sig .tc .vmem S1 .f32} {out : Vec F S0 .f32 → Vec F S1 .f32}
    (h : Maps c Set.univ e m0 m1 out) (Φ O : sProp 𝕄) {δ0 δ1 : Type} (b0 : δ0 → Vec F S0 .f32) (b1 : δ1 → Vec F S1 .f32)
    (a0 x0 : Vec F S0 .f32) (a1 : Vec F S1 .f32) (h0 : a0 = x0) (h1 : a1 = out x0) (hb : ∀ d, b0 d = x0) :
    iprop(Φ ∗ O ∗ (∃ d, owns (c : Thread nD τ) m0 fullShare (b0 d)) ∗ (∃ d, owns (c : Thread nD τ) m1 fullShare (b1 d)))
      ⊢ wp frame (wpE (defs₀ (F := F)) Variants.none c none) Set.univ e fun _ =>
        iprop(Φ ∗ O ∗ owns (c : Thread nD τ) m0 fullShare a0 ∗ owns (c : Thread nD τ) m1 fullShare a1) := by
  subst h0 h1
  simp only [hb]
  unfold owns
  iintro ⟨HΦ, Ho, ⟨%d0, %f0, %hf0, H0⟩, ⟨%d1, %f1, -, H1⟩⟩
  subst hf0
  iapply (h f0 f1 _)
  isplitl [H0]; · iexact H0
  isplitl [H1]; · iexact H1
  iintro ⟨H0, H1⟩
  isplitl [HΦ]; · iexact HΦ
  isplitl [Ho]; · iexact Ho
  isplitl [H0]
  · iexists f0; isplitr; · ipureintro; rfl
    iexact H0
  iexact H1

def iblk0 (w : Fin cfg0.W) (t : Fin cfg0.N) :=
  ((cfg0.win w).blk t).view.read (Elt F) (V c (Pipeline.arrRef spec0 w))

def out0_1 (x0 : Vec F S1x1x176x176 .f32) : Vec F S1x1x352x352 .f32 :=
  View.canon [⟨rout, k0_pay1 (View.ld x0 rin176)⟩]

set_option maxHeartbeats 1000000 in
theorem sound_kernel0 (i : grid0.Coords) (arg1 : Memref sig .tc .vmem S1x1x176x176 .f32) (harg1 : arg1.IsWhole) :
    Maps (F := F) c E (cc0__resize_kernel i arg1 harg1 arg2 harg2) arg1 arg2 out0_1 := fun f0 f1 K => by
  simp only [cc0__resize_kernel_eq_skeleton]; unfold cc0__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat0 : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (w : Fin cfg0.W) : (dat0 V c).A w = V c (Pipeline.arrRef spec0 w) := by dsimp only [dat0]
theorem after0_0 (t : Fin cfg0.N) : (dat0 V c).after 0 t = iblk0 V c 0 t := by dsimp only [dat0]
theorem after0_1 (t : Fin cfg0.N) : (dat0 V c).after 1 t = out0_1 (iblk0 V c 0 t) := by dsimp only [dat0]

theorem body_obligation0 : BodyObligation (dat0 V c) defs₀ Variants.none () Set.univ := fun t => by
  rw [bigSep_W0, bigSep_W0]
  exact Maps.body c (e := bodyAt0 t) (sound_kernel0 c _ _ _ _ _ _) _ _ _ _ _ _ _ (after0_0 V c t) (after0_1 V c t)
    fun d => (dat0 V c).before_fetched 0 t (fetch0_0 t) d

def iblk1 (w : Fin cfg1.W) (t : Fin cfg1.N) :=
  ((cfg1.win w).blk t).view.read (Elt F) (V c (Pipeline.arrRef spec1 w))

def out1_1 (x0 : Vec F S1x1x88x88 .f32) : Vec F S1x1x352x352 .f32 :=
  View.canon [⟨rout, k1_pay1 (View.ld x0 rin88)⟩]

set_option maxHeartbeats 1000000 in
theorem sound_kernel1 (i : grid1.Coords) (arg1 : Memref sig .tc .vmem S1x1x88x88 .f32) (harg1 : arg1.IsWhole) :
    Maps (F := F) c E (cc1__resize_kernel i arg1 harg1 arg2 harg2) arg1 arg2 out1_1 := fun f0 f1 K => by
  simp only [cc1__resize_kernel_eq_skeleton]; unfold cc1__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat1 : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (w : Fin cfg1.W) : (dat1 V c).A w = V c (Pipeline.arrRef spec1 w) := by dsimp only [dat1]
theorem after1_0 (t : Fin cfg1.N) : (dat1 V c).after 0 t = iblk1 V c 0 t := by dsimp only [dat1]
theorem after1_1 (t : Fin cfg1.N) : (dat1 V c).after 1 t = out1_1 (iblk1 V c 0 t) := by dsimp only [dat1]

theorem body_obligation1 : BodyObligation (dat1 V c) defs₀ Variants.none () Set.univ := fun t => by
  rw [bigSep_W1, bigSep_W1]
  exact Maps.body c (e := bodyAt1 t) (sound_kernel1 c _ _ _ _ _ _) _ _ _ _ _ _ _ (after1_0 V c t) (after1_1 V c t)
    fun d => (dat1 V c).before_fetched 0 t (fetch1_0 t) d

def iblk2 (w : Fin cfg2.W) (t : Fin cfg2.N) :=
  ((cfg2.win w).blk t).view.read (Elt F) (V c (Pipeline.arrRef spec2 w))

def out2_1 (x0 : Vec F S1x1x44x44 .f32) : Vec F S1x1x352x352 .f32 :=
  View.canon [⟨rout, k2_pay1 (View.ld x0 rin44)⟩]

set_option maxHeartbeats 1000000 in
theorem sound_kernel2 (i : grid2.Coords) (arg1 : Memref sig .tc .vmem S1x1x44x44 .f32) (harg1 : arg1.IsWhole) :
    Maps (F := F) c E (cc2__resize_kernel i arg1 harg1 arg2 harg2) arg1 arg2 out2_1 := fun f0 f1 K => by
  simp only [cc2__resize_kernel_eq_skeleton]; unfold cc2__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat2 : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (w : Fin cfg2.W) : (dat2 V c).A w = V c (Pipeline.arrRef spec2 w) := by dsimp only [dat2]
theorem after2_0 (t : Fin cfg2.N) : (dat2 V c).after 0 t = iblk2 V c 0 t := by dsimp only [dat2]
theorem after2_1 (t : Fin cfg2.N) : (dat2 V c).after 1 t = out2_1 (iblk2 V c 0 t) := by dsimp only [dat2]

theorem body_obligation2 : BodyObligation (dat2 V c) defs₀ Variants.none () Set.univ := fun t => by
  rw [bigSep_W2, bigSep_W2]
  exact Maps.body c (e := bodyAt2 t) (sound_kernel2 c _ _ _ _ _ _) _ _ _ _ _ _ _ (after2_0 V c t) (after2_1 V c t)
    fun d => (dat2 V c).before_fetched 0 t (fetch2_0 t) d

def iblk3 (w : Fin cfg3.W) (t : Fin cfg3.N) :=
  ((cfg3.win w).blk t).view.read (Elt F) (V c (Pipeline.arrRef spec3 w))

def out3_1 (x0 : Vec F S1x1x22x22 .f32) : Vec F S1x1x352x352 .f32 :=
  View.canon [⟨rout, k3_pay1 (View.ld x0 rin22)⟩]

set_option maxHeartbeats 1000000 in
theorem sound_kernel3 (i : grid3.Coords) (arg1 : Memref sig .tc .vmem S1x1x22x22 .f32) (harg1 : arg1.IsWhole) :
    Maps (F := F) c E (cc3__resize_kernel i arg1 harg1 arg2 harg2) arg1 arg2 out3_1 := fun f0 f1 K => by
  simp only [cc3__resize_kernel_eq_skeleton]; unfold cc3__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat3 : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (w : Fin cfg3.W) : (dat3 V c).A w = V c (Pipeline.arrRef spec3 w) := by dsimp only [dat3]
theorem after3_0 (t : Fin cfg3.N) : (dat3 V c).after 0 t = iblk3 V c 0 t := by dsimp only [dat3]
theorem after3_1 (t : Fin cfg3.N) : (dat3 V c).after 1 t = out3_1 (iblk3 V c 0 t) := by dsimp only [dat3]

theorem body_obligation3 : BodyObligation (dat3 V c) defs₀ Variants.none () Set.univ := fun t => by
  rw [bigSep_W3, bigSep_W3]
  exact Maps.body c (e := bodyAt3 t) (sound_kernel3 c _ _ _ _ _ _) _ _ _ _ _ _ _ (after3_0 V c t) (after3_1 V c t)
    fun d => (dat3 V c).before_fetched 0 t (fetch3_0 t) d

def iblk4 (w : Fin cfg4.W) (t : Fin cfg4.N) :=
  ((cfg4.win w).blk t).view.read (Elt F) (V c (Pipeline.arrRef spec4 w))

def out4_1 (x0 : Vec F S1x1x11x11 .f32) : Vec F S1x1x352x352 .f32 :=
  View.canon [⟨rout, k4_pay1 (View.ld x0 rin11)⟩]

set_option maxHeartbeats 1000000 in
theorem sound_kernel4 (i : grid4.Coords) (arg1 : Memref sig .tc .vmem S1x1x11x11 .f32) (harg1 : arg1.IsWhole) :
    Maps (F := F) c E (cc4__resize_kernel i arg1 harg1 arg2 harg2) arg1 arg2 out4_1 := fun f0 f1 K => by
  simp only [cc4__resize_kernel_eq_skeleton]; unfold cc4__resize_kernel_skel
  iintro ⟨H0, H1, Hk⟩
  sl_exec
  sl_step
  iapply Hk
  isplitl [H0]; · iexact H0
  iexists _; isplitr; swap; · iexact H1
  ipureintro
  exact View.read_writes_eq_canon _ _ _ (cover _)

def dat4 : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (w : Fin cfg4.W) : (dat4 V c).A w = V c (Pipeline.arrRef spec4 w) := by dsimp only [dat4]
theorem after4_0 (t : Fin cfg4.N) : (dat4 V c).after 0 t = iblk4 V c 0 t := by dsimp only [dat4]
theorem after4_1 (t : Fin cfg4.N) : (dat4 V c).after 1 t = out4_1 (iblk4 V c 0 t) := by dsimp only [dat4]

theorem body_obligation4 : BodyObligation (dat4 V c) defs₀ Variants.none () Set.univ := fun t => by
  rw [bigSep_W4, bigSep_W4]
  exact Maps.body c (e := bodyAt4 t) (sound_kernel4 c _ _ _ _ _ _) _ _ _ _ _ _ _ (after4_0 V c t) (after4_1 V c t)
    fun d => (dat4 V c).before_fetched 0 t (fetch4_0 t) d

def iblk5 (w : Fin cfg5.W) (t : Fin cfg5.N) :=
  ((cfg5.win w).blk t).view.read (Elt F) (V c (Pipeline.arrRef spec5 w))

def out5_1 (x0 : Vec F S1x1x176x176 .f32) : Vec F S1x1x352x352 .f32 :=
  View.canon [⟨rout, k5_pay1 (View.ld x0 rin176)⟩]

theorem sound_kernel5 (i : grid5.Coords) (arg1 : Memref sig .tc .vmem S1x1x176x176 .f32) (harg1 : arg1.IsWhole) :
    Maps (F := F) c E (cc5__resize_kernel i arg1 harg1 arg2 harg2) arg1 arg2 out5_1 :=
  sound_kernel0 c E arg2 harg2 i arg1 harg1

def dat5 : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (w : Fin cfg5.W) : (dat5 V c).A w = V c (Pipeline.arrRef spec5 w) := by dsimp only [dat5]
theorem after5_0 (t : Fin cfg5.N) : (dat5 V c).after 0 t = iblk5 V c 0 t := by dsimp only [dat5]
theorem after5_1 (t : Fin cfg5.N) : (dat5 V c).after 1 t = out5_1 (iblk5 V c 0 t) := by dsimp only [dat5]

theorem body_obligation5 : BodyObligation (dat5 V c) defs₀ Variants.none () Set.univ := fun t => by
  rw [bigSep_W5, bigSep_W5]
  exact Maps.body c (e := bodyAt5 t) (sound_kernel5 c _ _ _ _ _ _) _ _ _ _ _ _ _ (after5_0 V c t) (after5_1 V c t)
    fun d => (dat5 V c).before_fetched 0 t (fetch5_0 t) d

def iblk6 (w : Fin cfg6.W) (t : Fin cfg6.N) :=
  ((cfg6.win w).blk t).view.read (Elt F) (V c (Pipeline.arrRef spec6 w))

def out6_1 (x0 : Vec F S1x1x88x88 .f32) : Vec F S1x1x352x352 .f32 :=
  View.canon [⟨rout, k6_pay1 (View.ld x0 rin88)⟩]

theorem sound_kernel6 (i : grid6.Coords) (arg1 : Memref sig .tc .vmem S1x1x88x88 .f32) (harg1 : arg1.IsWhole) :
    Maps (F := F) c E (cc6__resize_kernel i arg1 harg1 arg2 harg2) arg1 arg2 out6_1 :=
  sound_kernel1 c E arg2 harg2 i arg1 harg1

def dat6 : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (w : Fin cfg6.W) : (dat6 V c).A w = V c (Pipeline.arrRef spec6 w) := by dsimp only [dat6]
theorem after6_0 (t : Fin cfg6.N) : (dat6 V c).after 0 t = iblk6 V c 0 t := by dsimp only [dat6]
theorem after6_1 (t : Fin cfg6.N) : (dat6 V c).after 1 t = out6_1 (iblk6 V c 0 t) := by dsimp only [dat6]

theorem body_obligation6 : BodyObligation (dat6 V c) defs₀ Variants.none () Set.univ := fun t => by
  rw [bigSep_W6, bigSep_W6]
  exact Maps.body c (e := bodyAt6 t) (sound_kernel6 c _ _ _ _ _ _) _ _ _ _ _ _ _ (after6_0 V c t) (after6_1 V c t)
    fun d => (dat6 V c).before_fetched 0 t (fetch6_0 t) d

def iblk7 (w : Fin cfg7.W) (t : Fin cfg7.N) :=
  ((cfg7.win w).blk t).view.read (Elt F) (V c (Pipeline.arrRef spec7 w))

def out7_1 (x0 : Vec F S1x1x44x44 .f32) : Vec F S1x1x352x352 .f32 :=
  View.canon [⟨rout, k7_pay1 (View.ld x0 rin44)⟩]

theorem sound_kernel7 (i : grid7.Coords) (arg1 : Memref sig .tc .vmem S1x1x44x44 .f32) (harg1 : arg1.IsWhole) :
    Maps (F := F) c E (cc7__resize_kernel i arg1 harg1 arg2 harg2) arg1 arg2 out7_1 :=
  sound_kernel2 c E arg2 harg2 i arg1 harg1

def dat7 : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (w : Fin cfg7.W) : (dat7 V c).A w = V c (Pipeline.arrRef spec7 w) := by dsimp only [dat7]
theorem after7_0 (t : Fin cfg7.N) : (dat7 V c).after 0 t = iblk7 V c 0 t := by dsimp only [dat7]
theorem after7_1 (t : Fin cfg7.N) : (dat7 V c).after 1 t = out7_1 (iblk7 V c 0 t) := by dsimp only [dat7]

theorem body_obligation7 : BodyObligation (dat7 V c) defs₀ Variants.none () Set.univ := fun t => by
  rw [bigSep_W7, bigSep_W7]
  exact Maps.body c (e := bodyAt7 t) (sound_kernel7 c _ _ _ _ _ _) _ _ _ _ _ _ _ (after7_0 V c t) (after7_1 V c t)
    fun d => (dat7 V c).before_fetched 0 t (fetch7_0 t) d

def iblk8 (w : Fin cfg8.W) (t : Fin cfg8.N) :=
  ((cfg8.win w).blk t).view.read (Elt F) (V c (Pipeline.arrRef spec8 w))

def out8_1 (x0 : Vec F S1x1x22x22 .f32) : Vec F S1x1x352x352 .f32 :=
  View.canon [⟨rout, k8_pay1 (View.ld x0 rin22)⟩]

theorem sound_kernel8 (i : grid8.Coords) (arg1 : Memref sig .tc .vmem S1x1x22x22 .f32) (harg1 : arg1.IsWhole) :
    Maps (F := F) c E (cc8__resize_kernel i arg1 harg1 arg2 harg2) arg1 arg2 out8_1 :=
  sound_kernel3 c E arg2 harg2 i arg1 harg1

def dat8 : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (w : Fin cfg8.W) : (dat8 V c).A w = V c (Pipeline.arrRef spec8 w) := by dsimp only [dat8]
theorem after8_0 (t : Fin cfg8.N) : (dat8 V c).after 0 t = iblk8 V c 0 t := by dsimp only [dat8]
theorem after8_1 (t : Fin cfg8.N) : (dat8 V c).after 1 t = out8_1 (iblk8 V c 0 t) := by dsimp only [dat8]

theorem body_obligation8 : BodyObligation (dat8 V c) defs₀ Variants.none () Set.univ := fun t => by
  rw [bigSep_W8, bigSep_W8]
  exact Maps.body c (e := bodyAt8 t) (sound_kernel8 c _ _ _ _ _ _) _ _ _ _ _ _ _ (after8_0 V c t) (after8_1 V c t)
    fun d => (dat8 V c).before_fetched 0 t (fetch8_0 t) d

def iblk9 (w : Fin cfg9.W) (t : Fin cfg9.N) :=
  ((cfg9.win w).blk t).view.read (Elt F) (V c (Pipeline.arrRef spec9 w))

def out9_1 (x0 : Vec F S1x1x11x11 .f32) : Vec F S1x1x352x352 .f32 :=
  View.canon [⟨rout, k9_pay1 (View.ld x0 rin11)⟩]

theorem sound_kernel9 (i : grid9.Coords) (arg1 : Memref sig .tc .vmem S1x1x11x11 .f32) (harg1 : arg1.IsWhole) :
    Maps (F := F) c E (cc9__resize_kernel i arg1 harg1 arg2 harg2) arg1 arg2 out9_1 :=
  sound_kernel4 c E arg2 harg2 i arg1 harg1

def dat9 : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (w : Fin cfg9.W) : (dat9 V c).A w = V c (Pipeline.arrRef spec9 w) := by dsimp only [dat9]
theorem after9_0 (t : Fin cfg9.N) : (dat9 V c).after 0 t = iblk9 V c 0 t := by dsimp only [dat9]
theorem after9_1 (t : Fin cfg9.N) : (dat9 V c).after 1 t = out9_1 (iblk9 V c 0 t) := by dsimp only [dat9]

theorem body_obligation9 : BodyObligation (dat9 V c) defs₀ Variants.none () Set.univ := fun t => by
  rw [bigSep_W9, bigSep_W9]
  exact Maps.body c (e := bodyAt9 t) (sound_kernel9 c _ _ _ _ _ _) _ _ _ _ _ _ _ (after9_0 V c t) (after9_1 V c t)
    fun d => (dat9 V c).before_fetched 0 t (fetch9_0 t) d

def iblk10 (w : Fin cfg10.W) (t : Fin cfg10.N) :=
  ((cfg10.win w).blk t).view.read (Elt F) (V c (Pipeline.arrRef spec10 w))

def out10_1 (x0 : Vec F S1x1x176x176 .f32) : Vec F S1x1x352x352 .f32 :=
  View.canon [⟨rout, k10_pay1 (View.ld x0 rin176)⟩]

theorem sound_kernel10 (i : grid10.Coords) (arg1 : Memref sig .tc .vmem S1x1x176x176 .f32) (harg1 : arg1.IsWhole) :
    Maps (F := F) c E (cc10__resize_kernel i arg1 harg1 arg2 harg2) arg1 arg2 out10_1 :=
  sound_kernel0 c E arg2 harg2 i arg1 harg1

def dat10 : Dat τ (Elt F) Unit ℕ (UR sig nD τ) ℕ cfg10 c where
  A w := V c (Pipeline.arrRef spec10 w)
  after w t := match w with
    | ⟨0, _⟩ => iblk10 V c 0 t
    | ⟨1, _⟩ => out10_1 (iblk10 V c 0 t)
  Φ _ := Pipeline.ΦA spec10 c
  q _ := fullShare
  owed _ := 0

theorem A_eq10 (w : Fin cfg10.W) : (dat10 V c).A w = V c (Pipeline.arrRef spec10 w) := by dsimp only [dat10]
theorem after10_0 (t : Fin cfg10.N) : (dat10 V c).after 0 t = iblk10 V c 0 t := by dsimp only [dat10]
theorem after10_1 (t : Fin cfg10.N) : (dat10 V c).after 1 t = out10_1 (iblk10 V c 0 t) := by dsimp only [dat10]

theorem body_obligation10 : BodyObligation (dat10 V c) defs₀ Variants.none () Set.univ := fun t => by
  rw [bigSep_W10, bigSep_W10]
  exact Maps.body c (e := bodyAt10 t) (sound_kernel10 c _ _ _ _ _ _) _ _ _ _ _ _ _ (after10_0 V c t) (after10_1 V c t)
    fun d => (dat10 V c).before_fetched 0 t (fetch10_0 t) d

end Cert.KernelIdeal.Body

end
-- ==== Proof.IdealFold.lean ====
import proofs.«171194_j21698174779469_1_alg».proof.Proof.IdealBody

noncomputable section

namespace Cert.KernelIdeal.Fold

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def dats : (p : Fin 11) → ((c : Dev nD) → (b : Ref sig .tc) → Buf (Elt F) ((c : Thread nD τ).loc b)) → (c : Dev nD) →
    Dat τ (Elt F) Unit ℕ (UR sig nD τ) ℕ (cfgs p) c
  | ⟨0, _⟩ => dat0
  | ⟨1, _⟩ => dat1
  | ⟨2, _⟩ => dat2
  | ⟨3, _⟩ => dat3
  | ⟨4, _⟩ => dat4
  | ⟨5, _⟩ => dat5
  | ⟨6, _⟩ => dat6
  | ⟨7, _⟩ => dat7
  | ⟨8, _⟩ => dat8
  | ⟨9, _⟩ => dat9
  | ⟨10, _⟩ => dat10

theorem launches : ∀ p : Fin 11, Pipeline.LaunchFacts (nD := nD) (τ := τ) cfgs p
  | ⟨0, _⟩ => launch0
  | ⟨1, _⟩ => launch1
  | ⟨2, _⟩ => launch2
  | ⟨3, _⟩ => launch3
  | ⟨4, _⟩ => launch4
  | ⟨5, _⟩ => launch5
  | ⟨6, _⟩ => launch6
  | ⟨7, _⟩ => launch7
  | ⟨8, _⟩ => launch8
  | ⟨9, _⟩ => launch9
  | ⟨10, _⟩ => launch10

theorem dats_plain : ∀ (p : Fin 11) (V : (c : Dev nD) → (b : Ref sig .tc) → Buf (Elt F) ((c : Thread nD τ).loc b)) (c : Dev nD),
    (∀ t, (dats (F := F) p V c).Φ t = Pipeline.ΦA (cfgs p).spec c) ∧ (∀ w, (dats (F := F) p V c).q w = fullShare)
      ∧ (∀ t, (dats (F := F) p V c).owed t = 0) ∧ (∀ t, (dats (F := F) p V c).recorded t = Set.univ)
      ∧ ∀ w, (dats (F := F) p V c).A w = V c (Pipeline.arrRef (cfgs p).spec w)
  | ⟨0, _⟩ => fun _ _ => ⟨fun _ => rfl, fun _ => rfl, fun _ => rfl, fun _ => rfl, fun _ => rfl⟩
  | ⟨1, _⟩ => fun _ _ => ⟨fun _ => rfl, fun _ => rfl, fun _ => rfl, fun _ => rfl, fun _ => rfl⟩
  | ⟨2, _⟩ => fun _ _ => ⟨fun _ => rfl, fun _ => rfl, fun _ => rfl, fun _ => rfl, fun _ => rfl⟩
  | ⟨3, _⟩ => fun _ _ => ⟨fun _ => rfl, fun _ => rfl, fun _ => rfl, fun _ => rfl, fun _ => rfl⟩
  | ⟨4, _⟩ => fun _ _ => ⟨fun _ => rfl, fun _ => rfl, fun _ => rfl, fun _ => rfl, fun _ => rfl⟩
  | ⟨5, _⟩ => fun _ _ => ⟨fun _ => rfl, fun _ => rfl, fun _ => rfl, fun _ => rfl, fun _ => rfl⟩
  | ⟨6, _⟩ => fun _ _ => ⟨fun _ => rfl, fun _ => rfl, fun _ => rfl, fun _ => rfl, fun _ => rfl⟩
  | ⟨7, _⟩ => fun _ _ => ⟨fun _ => rfl, fun _ => rfl, fun _ => rfl, fun _ => rfl, fun _ => rfl⟩
  | ⟨8, _⟩ => fun _ _ => ⟨fun _ => rfl, fun _ => rfl, fun _ => rfl, fun _ => rfl, fun _ => rfl⟩
  | ⟨9, _⟩ => fun _ _ => ⟨fun _ => rfl, fun _ => rfl, fun _ => rfl, fun _ => rfl, fun _ => rfl⟩
  | ⟨10, _⟩ => fun _ _ => ⟨fun _ => rfl, fun _ => rfl, fun _ => rfl, fun _ => rfl, fun _ => rfl⟩

variable (m : (ℓ : Loc nD τ sig) → Buf (Elt F) ℓ) (ρ : Dev nD → PrngReg)

/-- The buffers after the first `k` regions: region `k` replaces its own two arrays and nothing else. -/
def Wn : ℕ → Dev nD → Valuation τ sig (Elt F)
  | 0 => fun c b => (s₀ m ρ).mem ((c : Dev nD), b)
  | k + 1 => fun c => if h : k < 11 then
      Pipeline.withArrays (cfgs ⟨k, h⟩).spec c (Wn k c) fun w => (dats ⟨k, h⟩ (fun c b => Wn k c b) c).arrAt w (cfgs ⟨k, h⟩).N
    else Wn k c

abbrev W12 : Dev nD → Valuation τ sig (Elt F) := fun c => StableHlo.after hostOps11 (Wn m ρ 11 c)

abbrev adm : (p : Fin 11) → (pcfgs (F := F) p).Adm := fun p => (cfgs p).toPCfg_adm

abbrev pdats (p : Fin 11) (c : Dev nD) : Dat τ (Elt F) Unit ℕ (UR sig nD τ) ℕ (Pipeline.pin (pcfgs (F := F)) adm p) c :=
  dats p (fun c b => Wn m ρ p c b) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem hostOps11_fresh : (hostOps11 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

end Cert.KernelIdeal.Fold

end
-- ==== Proof.IdealSegs.lean ====
import proofs.«171194_j21698174779469_1_alg».proof.Proof.IdealFold

noncomputable section

namespace Cert.KernelIdeal.Segs

open Cert.KernelIdeal Cert.KernelIdeal.Gen Cert.KernelIdeal.Body Cert.KernelIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- One record for all eleven regions: each only replaces its own two arrays in the buffers it is entered with. -/
def regOf (p : Fin 11) (lf : Pipeline.LaunchFacts (nD := nD) (τ := τ) cfgs p) (Wi : Dev nD → Valuation τ sig (Elt F))
    (hbody : ∀ c, BodyObligation (pdats m ρ p c) (defs₀ (F := F)) Variants.none () Set.univ)
    (hΦ : ∀ c t, (pdats m ρ p c).Φ t = Pipeline.ΦA (cfgs p).spec c)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Wi c (Proc.devRef .tc (Pipeline.arrRef (cfgs p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hF : ∀ w, (pdats m ρ p c).arrAt w (cfgs p).N = Pipeline.withArrays (cfgs p).spec c (Wi c)
        (fun w => (pdats m ρ p c).arrAt w (cfgs p).N) (Proc.devRef .tc (Pipeline.arrRef (cfgs p).spec w)) :=
      fun w => (Pipeline.withArrays_arr (cfgs p).spec lf.win.arr_inj c (Wi c) (fun w => (pdats m ρ p c).arrAt w (cfgs p).N) w).symm
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b)
      (fun b => Pipeline.withArrays (cfgs p).spec c (Wi c) (fun w => (pdats m ρ p c).arrAt w (cfgs p).N) b)
      ((pdats m ρ p c).arrAt · (cfgs p).N) hF
      (fun b hb => Pipeline.withArrays_of_ne (cfgs p).spec c (Wi c) _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

theorem hbodies : ∀ (p : Fin 11) (V : (c : Dev nD) → (b : Ref sig .tc) → Buf (Elt F) ((c : Thread nD τ).loc b)) (c : Dev nD),
    BodyObligation (dats (F := F) p V c) (defs₀ (F := F)) Variants.none () Set.univ
  | ⟨0, _⟩ => body_obligation0
  | ⟨1, _⟩ => body_obligation1
  | ⟨2, _⟩ => body_obligation2
  | ⟨3, _⟩ => body_obligation3
  | ⟨4, _⟩ => body_obligation4
  | ⟨5, _⟩ => body_obligation5
  | ⟨6, _⟩ => body_obligation6
  | ⟨7, _⟩ => body_obligation7
  | ⟨8, _⟩ => body_obligation8
  | ⟨9, _⟩ => body_obligation9
  | ⟨10, _⟩ => body_obligation10

def reg (p : Fin 11) := regOf m ρ p (launches p) (Wn m ρ p) (fun c => hbodies p _ c) (fun c => (dats_plain p _ c).1)
  (fun c => (dats_plain p _ c).2.1) (fun c => (dats_plain p _ c).2.2.1) (fun c => (dats_plain p _ c).2.2.2.1) (fun c => (dats_plain p _ c).2.2.2.2)

end Cert.KernelIdeal.Segs

end
-- ==== Proof.IdealRun.lean ====
import proofs.«171194_j21698174779469_1_alg».proof.Proof.IdealSegs

noncomputable section

namespace Cert.KernelIdeal.Run

open Cert.KernelIdeal Cert.KernelIdeal.Gen Cert.KernelIdeal.Body Cert.KernelIdeal.Fold Cert.KernelIdeal.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev joinSeg : Pipeline.HostSeg (Name := ℕ) (U := UR sig nD τ) (pcfgs (F := F)) defs₀ 𝒱₀ L lv :=
  Pipeline.HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (Wn m ρ 11) R

abbrev segs : List (Pipeline.Seg (pcfgs (F := F)) adm (pdats m ρ) () defs₀ 𝒱₀ L lv) :=
  [ .region (reg m ρ 0),
    .region (reg m ρ 1),
    .region (reg m ρ 2),
    .region (reg m ρ 3),
    .region (reg m ρ 4),
    .region (reg m ρ 5),
    .region (reg m ρ 6),
    .region (reg m ρ 7),
    .region (reg m ρ 8),
    .region (reg m ρ 9),
    .region (reg m ρ 10),
    .host (joinSeg m ρ) ]

theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wn m ρ 0 c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (StableHlo.after hostOps11 (Wn m ρ 11 c)) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Wn m ρ 0 c)
        from Pipeline.unscopedBufs_held c (Wn m ρ 0 c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Run

end
-- ==== Proof.WholeBlock.lean ====
import Idealize.ShloMosaic.Lib.Pipeline.Value

namespace Idealize.ShloMosaic

variable {Val : EltTy → Type} {S : Shape} {e : EltTy} {off : Fin S.rank → Nat}

-- A rectangle as large as its shape has no room to start anywhere but at zero.
theorem Rect.off_eq_zero (inb : ∀ a, off a + S.size a ≤ S.size a) : off = fun _ => 0 :=
  funext fun a => by have := inb a; omega

namespace View

theorem ld_whole_rect (inb : ∀ a, off a + S.size a ≤ S.size a) (X : S.Idx → Val e) :
    View.ld X (Rect.unit off S.size inb) = X :=
  ld_unit_zero (Rect.off_eq_zero inb) inb X

theorem canon_whole_rect [∀ e, Nonempty (Val e)] (inb : ∀ a, off a + S.size a ≤ S.size a) (w : S.Idx → Val e) :
    View.canon [(⟨Rect.unit off S.size inb, w⟩ : Piece Val S e)] = w :=
  canon_unit_zero (Rect.off_eq_zero inb) inb w

variable {sig : RefSig} {κ : Kind} (b : Ref sig κ) {off : Fin b.ty.shape.rank → Nat}
  (inb : ∀ a, off a + b.ty.shape.size a ≤ b.ty.shape.size a)

-- So a slice of a whole array that is as large as the array reads the array's contents
theorem read_whole_rect (X : b.ty.Contents Val) :
    ((View.whole b).slice (Rect.unit off b.ty.shape.size inb)).read Val X = X :=
  ld_whole_rect inb X

-- and holds every index of the array.
theorem mem_whole_rect (i : b.ty.shape.Idx) : i ∈ ((View.whole b).slice (Rect.unit off b.ty.shape.size inb)).set := by
  rw [set_slice_whole]; exact mem_set_unit_zero (Rect.off_eq_zero inb) inb i

end View

end Idealize.ShloMosaic
-- ==== Proof.IdealWhole.lean ====
import proofs.«171194_j21698174779469_1_alg».proof.Proof.IdealFold
import proofs.«171194_j21698174779469_1_alg».proof.Proof.WholeBlock

noncomputable section

namespace Cert.KernelIdeal.Whole

open Cert.KernelIdeal Cert.KernelIdeal.Gen Cert.KernelIdeal.Body
open Idealize.ShloMosaic Idealize.ShloMosaic.TcCoe

variable {F : FTy → Type} [FloatOps F]

variable (V : (c : Dev nD) → (b : Ref sig .tc) → Buf (Elt F) ((c : Thread nD τ).loc b))

-- Each window's one block is as large as its array, so it reads and holds the whole array: the output array ends as the stored value of the input array.
theorem whole0 (c : Dev nD) : (dat0 V c).arrAt 1 cfg0.N = k0_pay1 (V c main_arg1) :=
  (dat0 V c).arrAt_eq_of_cover 1 _ (fun t _ => by
      show (cfg0.win 1).cut _ ((dat0 V c).after 1 t) = _
      rw [after0_1, show ∀ x, out0_1 x = k0_pay1 x from fun _ =>
          (View.canon_whole_rect _ _).trans (congrArg k0_pay1 (View.ld_whole_rect _ _)),
        show iblk0 V c 0 t = V c main_arg1 from View.read_whole_rect main_arg1 _ _]
      exact (View.read_whole_rect main_v0 _ _).symm)
    fun i => ⟨t0_0, flush0_1 _, View.mem_whole_rect main_v0 _ i⟩

theorem whole1 (c : Dev nD) : (dat1 V c).arrAt 1 cfg1.N = k1_pay1 (V c main_arg2) :=
  (dat1 V c).arrAt_eq_of_cover 1 _ (fun t _ => by
      show (cfg1.win 1).cut _ ((dat1 V c).after 1 t) = _
      rw [after1_1, show ∀ x, out1_1 x = k1_pay1 x from fun _ =>
          (View.canon_whole_rect _ _).trans (congrArg k1_pay1 (View.ld_whole_rect _ _)),
        show iblk1 V c 0 t = V c main_arg2 from View.read_whole_rect main_arg2 _ _]
      exact (View.read_whole_rect main_v1 _ _).symm)
    fun i => ⟨t1_0, flush1_1 _, View.mem_whole_rect main_v1 _ i⟩

theorem whole2 (c : Dev nD) : (dat2 V c).arrAt 1 cfg2.N = k2_pay1 (V c main_arg3) :=
  (dat2 V c).arrAt_eq_of_cover 1 _ (fun t _ => by
      show (cfg2.win 1).cut _ ((dat2 V c).after 1 t) = _
      rw [after2_1, show ∀ x, out2_1 x = k2_pay1 x from fun _ =>
          (View.canon_whole_rect _ _).trans (congrArg k2_pay1 (View.ld_whole_rect _ _)),
        show iblk2 V c 0 t = V c main_arg3 from View.read_whole_rect main_arg3 _ _]
      exact (View.read_whole_rect main_v2 _ _).symm)
    fun i => ⟨t2_0, flush2_1 _, View.mem_whole_rect main_v2 _ i⟩

theorem whole3 (c : Dev nD) : (dat3 V c).arrAt 1 cfg3.N = k3_pay1 (V c main_arg4) :=
  (dat3 V c).arrAt_eq_of_cover 1 _ (fun t _ => by
      show (cfg3.win 1).cut _ ((dat3 V c).after 1 t) = _
      rw [after3_1, show ∀ x, out3_1 x = k3_pay1 x from fun _ =>
          (View.canon_whole_rect _ _).trans (congrArg k3_pay1 (View.ld_whole_rect _ _)),
        show iblk3 V c 0 t = V c main_arg4 from View.read_whole_rect main_arg4 _ _]
      exact (View.read_whole_rect main_v3 _ _).symm)
    fun i => ⟨t3_0, flush3_1 _, View.mem_whole_rect main_v3 _ i⟩

theorem whole4 (c : Dev nD) : (dat4 V c).arrAt 1 cfg4.N = k4_pay1 (V c main_arg5) :=
  (dat4 V c).arrAt_eq_of_cover 1 _ (fun t _ => by
      show (cfg4.win 1).cut _ ((dat4 V c).after 1 t) = _
      rw [after4_1, show ∀ x, out4_1 x = k4_pay1 x from fun _ =>
          (View.canon_whole_rect _ _).trans (congrArg k4_pay1 (View.ld_whole_rect _ _)),
        show iblk4 V c 0 t = V c main_arg5 from View.read_whole_rect main_arg5 _ _]
      exact (View.read_whole_rect main_v4 _ _).symm)
    fun i => ⟨t4_0, flush4_1 _, View.mem_whole_rect main_v4 _ i⟩

theorem whole5 (c : Dev nD) : (dat5 V c).arrAt 1 cfg5.N = k5_pay1 (V c main_arg6) :=
  (dat5 V c).arrAt_eq_of_cover 1 _ (fun t _ => by
      show (cfg5.win 1).cut _ ((dat5 V c).after 1 t) = _
      rw [after5_1, show ∀ x, out5_1 x = k5_pay1 x from fun _ =>
          (View.canon_whole_rect _ _).trans (congrArg k5_pay1 (View.ld_whole_rect _ _)),
        show iblk5 V c 0 t = V c main_arg6 from View.read_whole_rect main_arg6 _ _]
      exact (View.read_whole_rect main_v5 _ _).symm)
    fun i => ⟨t5_0, flush5_1 _, View.mem_whole_rect main_v5 _ i⟩

theorem whole6 (c : Dev nD) : (dat6 V c).arrAt 1 cfg6.N = k6_pay1 (V c main_arg7) :=
  (dat6 V c).arrAt_eq_of_cover 1 _ (fun t _ => by
      show (cfg6.win 1).cut _ ((dat6 V c).after 1 t) = _
      rw [after6_1, show ∀ x, out6_1 x = k6_pay1 x from fun _ =>
          (View.canon_whole_rect _ _).trans (congrArg k6_pay1 (View.ld_whole_rect _ _)),
        show iblk6 V c 0 t = V c main_arg7 from View.read_whole_rect main_arg7 _ _]
      exact (View.read_whole_rect main_v6 _ _).symm)
    fun i => ⟨t6_0, flush6_1 _, View.mem_whole_rect main_v6 _ i⟩

theorem whole7 (c : Dev nD) : (dat7 V c).arrAt 1 cfg7.N = k7_pay1 (V c main_arg8) :=
  (dat7 V c).arrAt_eq_of_cover 1 _ (fun t _ => by
      show (cfg7.win 1).cut _ ((dat7 V c).after 1 t) = _
      rw [after7_1, show ∀ x, out7_1 x = k7_pay1 x from fun _ =>
          (View.canon_whole_rect _ _).trans (congrArg k7_pay1 (View.ld_whole_rect _ _)),
        show iblk7 V c 0 t = V c main_arg8 from View.read_whole_rect main_arg8 _ _]
      exact (View.read_whole_rect main_v7 _ _).symm)
    fun i => ⟨t7_0, flush7_1 _, View.mem_whole_rect main_v7 _ i⟩

theorem whole8 (c : Dev nD) : (dat8 V c).arrAt 1 cfg8.N = k8_pay1 (V c main_arg9) :=
  (dat8 V c).arrAt_eq_of_cover 1 _ (fun t _ => by
      show (cfg8.win 1).cut _ ((dat8 V c).after 1 t) = _
      rw [after8_1, show ∀ x, out8_1 x = k8_pay1 x from fun _ =>
          (View.canon_whole_rect _ _).trans (congrArg k8_pay1 (View.ld_whole_rect _ _)),
        show iblk8 V c 0 t = V c main_arg9 from View.read_whole_rect main_arg9 _ _]
      exact (View.read_whole_rect main_v8 _ _).symm)
    fun i => ⟨t8_0, flush8_1 _, View.mem_whole_rect main_v8 _ i⟩

theorem whole9 (c : Dev nD) : (dat9 V c).arrAt 1 cfg9.N = k9_pay1 (V c main_arg10) :=
  (dat9 V c).arrAt_eq_of_cover 1 _ (fun t _ => by
      show (cfg9.win 1).cut _ ((dat9 V c).after 1 t) = _
      rw [after9_1, show ∀ x, out9_1 x = k9_pay1 x from fun _ =>
          (View.canon_whole_rect _ _).trans (congrArg k9_pay1 (View.ld_whole_rect _ _)),
        show iblk9 V c 0 t = V c main_arg10 from View.read_whole_rect main_arg10 _ _]
      exact (View.read_whole_rect main_v9 _ _).symm)
    fun i => ⟨t9_0, flush9_1 _, View.mem_whole_rect main_v9 _ i⟩

theorem whole10 (c : Dev nD) : (dat10 V c).arrAt 1 cfg10.N = k10_pay1 (V c main_arg11) :=
  (dat10 V c).arrAt_eq_of_cover 1 _ (fun t _ => by
      show (cfg10.win 1).cut _ ((dat10 V c).after 1 t) = _
      rw [after10_1, show ∀ x, out10_1 x = k10_pay1 x from fun _ =>
          (View.canon_whole_rect _ _).trans (congrArg k10_pay1 (View.ld_whole_rect _ _)),
        show iblk10 V c 0 t = V c main_arg11 from View.read_whole_rect main_arg11 _ _]
      exact (View.read_whole_rect main_v10 _ _).symm)
    fun i => ⟨t10_0, flush10_1 _, View.mem_whole_rect main_v10 _ i⟩

end Cert.KernelIdeal.Whole

end
-- ==== Proof.IdealRead.lean ====
import proofs.«171194_j21698174779469_1_alg».proof.Proof.IdealFold
import proofs.«171194_j21698174779469_1_alg».proof.Proof.IdealWhole
import Idealize.ShloMosaic.Lib.StableHlo.Run

noncomputable section

namespace Cert.KernelIdeal.Readback

open Cert.KernelIdeal Cert.KernelIdeal.Gen Cert.KernelIdeal.Body Cert.KernelIdeal.Fold Cert.KernelIdeal.Whole
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Region `p` writes no array but those of its output windows. -/
abbrev Untouched (p : Fin 11) (b : Ref sig .tc) : Prop :=
  ∀ w, ((cfgs p).win w).isOut = true → Pipeline.arrRef (cfgs p).spec w ≠ b

theorem Wn_arr (k : ℕ) (h : k < 11) (c : Dev nD) (w : Fin (cfgs ⟨k, h⟩).W) :
    Wn m ρ (k + 1) c (Proc.devRef .tc (Pipeline.arrRef (cfgs ⟨k, h⟩).spec w))
      = (dats ⟨k, h⟩ (fun c b => Wn m ρ k c b) c).arrAt w (cfgs ⟨k, h⟩).N := by
  simp only [Wn, dif_pos h]
  exact Pipeline.withArrays_arr (cfgs ⟨k, h⟩).spec (launches ⟨k, h⟩).win.arr_inj c _ _ w

/-- An input window's array ends as it started, and an array of no window is not touched at all. -/
theorem Wn_succ (k : ℕ) (h : k < 11) (c : Dev nD) (b : Ref sig .tc) (hb : Untouched ⟨k, h⟩ b) :
    Wn m ρ (k + 1) c (Proc.devRef .tc b) = Wn m ρ k c (Proc.devRef .tc b) := by
  by_cases hw : ∃ w, Pipeline.arrRef (cfgs ⟨k, h⟩).spec w = b
  · obtain ⟨w, rfl⟩ := hw
    have hin : ((cfgs ⟨k, h⟩).win w).isOut = false := by
      cases e : ((cfgs ⟨k, h⟩).win w).isOut
      · rfl
      · exact absurd rfl (hb w e)
    exact (Wn_arr m ρ k h c w).trans (((dats ⟨k, h⟩ _ c).arrAt_in w hin _).trans ((dats_plain ⟨k, h⟩ _ c).2.2.2.2 w))
  · simp only [Wn, dif_pos h]
    exact Pipeline.withArrays_of_ne (cfgs ⟨k, h⟩).spec c _ _ b fun w e => hw ⟨w, e⟩

/-- The contents of `b` do not change along a stretch of regions none of which writes it. -/
theorem Wn_of_le (j : ℕ) (c : Dev nD) (b : Ref sig .tc) : ∀ k, j ≤ k → k ≤ 11 →
    (∀ p : Fin 11, j ≤ p.val → p.val < k → Untouched p b) → Wn m ρ k c (Proc.devRef .tc b) = Wn m ρ j c (Proc.devRef .tc b)
  | 0, hj, _, _ => by rw [Nat.le_zero.mp hj]
  | k + 1, hj, hk, hb => by
    rcases Nat.lt_or_ge j (k + 1) with hlt | hge
    · exact (Wn_succ m ρ k hk c b (hb ⟨k, hk⟩ (Nat.lt_succ_iff.mp hlt) (Nat.lt_succ_self k))).trans
        (Wn_of_le j c b k (Nat.lt_succ_iff.mp hlt) (Nat.le_of_lt hk) fun p h1 h2 => hb p h1 (Nat.lt_succ_of_lt h2))
    · rw [Nat.le_antisymm hj hge]

theorem W12_keep (c : Dev nD) (b : Ref sig .tc) (hb : b ≠ main_v11) :
    W12 m ρ c (Proc.devRef .tc b) = Wn m ρ 11 c (Proc.devRef .tc b) :=
  StableHlo.after_of_forall_not_mem (b := Proc.devRef .tc b) _ _ (List.forall_iff_forall_mem.mp (by
    simp only [hostOps11, List.Forall, StableHlo.nary_writes, Finset.mem_singleton]
    exact StableHlo.devRef_ne_of_ne hb))

/-- A buffer that nothing writes ends as launched. -/
theorem kept (c : Dev nD) (b : Ref sig .tc) (hb : b ≠ main_v11) (h : ∀ p : Fin 11, 0 ≤ p.val → p.val < 11 → Untouched p b) :
    W12 m ρ c (Proc.devRef .tc b) = m ((c : Thread nD τ).loc b) :=
  (W12_keep m ρ c b hb).trans (Wn_of_le m ρ 0 c b 11 (Nat.zero_le _) (Nat.le_refl _) h)

theorem kept_mem (c : Dev nD) {mem : (ℓ : Loc nD τ sig) → Buf (Elt F) ℓ}
    (h : ∀ b ∈ Pipeline.ucRefs τ sig, mem (((c : Thread nD τ)).1, b) = W12 m ρ c b) (b : Ref sig .tc)
    (hs : ¬ (Proc.devRef .tc b : DevRef τ sig).isScoped) (hb : b ≠ main_v11) (hu : ∀ p : Fin 11, 0 ≤ p.val → p.val < 11 → Untouched p b) :
    mem ((c : Thread nD τ).loc b) = m ((c : Thread nD τ).loc b) :=
  (h _ (mem_uc b hs)).trans (kept m ρ c b hb hu)

theorem image0 (c : Dev nD) : Wn m ρ 11 c (Proc.devRef .tc main_v0) = k0_pay1 (m ((c : Thread nD τ).loc main_arg1)) :=
  (Wn_of_le m ρ 1 c main_v0 11 (by decide) (by decide) (by decide)).trans <| (Wn_arr m ρ 0 (of_decide_eq_true rfl) c 1).trans <|
    (whole0 (fun c b => Wn m ρ 0 c b) c).trans (congrArg k0_pay1 (Wn_of_le m ρ 0 c main_arg1 0 (by decide) (by decide) (by decide)))

theorem image1 (c : Dev nD) : Wn m ρ 11 c (Proc.devRef .tc main_v1) = k1_pay1 (m ((c : Thread nD τ).loc main_arg2)) :=
  (Wn_of_le m ρ 2 c main_v1 11 (by decide) (by decide) (by decide)).trans <| (Wn_arr m ρ 1 (of_decide_eq_true rfl) c 1).trans <|
    (whole1 (fun c b => Wn m ρ 1 c b) c).trans (congrArg k1_pay1 (Wn_of_le m ρ 0 c main_arg2 1 (by decide) (by decide) (by decide)))

theorem image2 (c : Dev nD) : Wn m ρ 11 c (Proc.devRef .tc main_v2) = k2_pay1 (m ((c : Thread nD τ).loc main_arg3)) :=
  (Wn_of_le m ρ 3 c main_v2 11 (by decide) (by decide) (by decide)).trans <| (Wn_arr m ρ 2 (of_decide_eq_true rfl) c 1).trans <|
    (whole2 (fun c b => Wn m ρ 2 c b) c).trans (congrArg k2_pay1 (Wn_of_le m ρ 0 c main_arg3 2 (by decide) (by decide) (by decide)))

theorem image3 (c : Dev nD) : Wn m ρ 11 c (Proc.devRef .tc main_v3) = k3_pay1 (m ((c : Thread nD τ).loc main_arg4)) :=
  (Wn_of_le m ρ 4 c main_v3 11 (by decide) (by decide) (by decide)).trans <| (Wn_arr m ρ 3 (of_decide_eq_true rfl) c 1).trans <|
    (whole3 (fun c b => Wn m ρ 3 c b) c).trans (congrArg k3_pay1 (Wn_of_le m ρ 0 c main_arg4 3 (by decide) (by decide) (by decide)))

theorem image4 (c : Dev nD) : Wn m ρ 11 c (Proc.devRef .tc main_v4) = k4_pay1 (m ((c : Thread nD τ).loc main_arg5)) :=
  (Wn_of_le m ρ 5 c main_v4 11 (by decide) (by decide) (by decide)).trans <| (Wn_arr m ρ 4 (of_decide_eq_true rfl) c 1).trans <|
    (whole4 (fun c b => Wn m ρ 4 c b) c).trans (congrArg k4_pay1 (Wn_of_le m ρ 0 c main_arg5 4 (by decide) (by decide) (by decide)))

theorem image5 (c : Dev nD) : Wn m ρ 11 c (Proc.devRef .tc main_v5) = k5_pay1 (m ((c : Thread nD τ).loc main_arg6)) :=
  (Wn_of_le m ρ 6 c main_v5 11 (by decide) (by decide) (by decide)).trans <| (Wn_arr m ρ 5 (of_decide_eq_true rfl) c 1).trans <|
    (whole5 (fun c b => Wn m ρ 5 c b) c).trans (congrArg k5_pay1 (Wn_of_le m ρ 0 c main_arg6 5 (by decide) (by decide) (by decide)))

theorem image6 (c : Dev nD) : Wn m ρ 11 c (Proc.devRef .tc main_v6) = k6_pay1 (m ((c : Thread nD τ).loc main_arg7)) :=
  (Wn_of_le m ρ 7 c main_v6 11 (by decide) (by decide) (by decide)).trans <| (Wn_arr m ρ 6 (of_decide_eq_true rfl) c 1).trans <|
    (whole6 (fun c b => Wn m ρ 6 c b) c).trans (congrArg k6_pay1 (Wn_of_le m ρ 0 c main_arg7 6 (by decide) (by decide) (by decide)))

theorem image7 (c : Dev nD) : Wn m ρ 11 c (Proc.devRef .tc main_v7) = k7_pay1 (m ((c : Thread nD τ).loc main_arg8)) :=
  (Wn_of_le m ρ 8 c main_v7 11 (by decide) (by decide) (by decide)).trans <| (Wn_arr m ρ 7 (of_decide_eq_true rfl) c 1).trans <|
    (whole7 (fun c b => Wn m ρ 7 c b) c).trans (congrArg k7_pay1 (Wn_of_le m ρ 0 c main_arg8 7 (by decide) (by decide) (by decide)))

theorem image8 (c : Dev nD) : Wn m ρ 11 c (Proc.devRef .tc main_v8) = k8_pay1 (m ((c : Thread nD τ).loc main_arg9)) :=
  (Wn_of_le m ρ 9 c main_v8 11 (by decide) (by decide) (by decide)).trans <| (Wn_arr m ρ 8 (of_decide_eq_true rfl) c 1).trans <|
    (whole8 (fun c b => Wn m ρ 8 c b) c).trans (congrArg k8_pay1 (Wn_of_le m ρ 0 c main_arg9 8 (by decide) (by decide) (by decide)))

theorem image9 (c : Dev nD) : Wn m ρ 11 c (Proc.devRef .tc main_v9) = k9_pay1 (m ((c : Thread nD τ).loc main_arg10)) :=
  (Wn_of_le m ρ 10 c main_v9 11 (by decide) (by decide) (by decide)).trans <| (Wn_arr m ρ 9 (of_decide_eq_true rfl) c 1).trans <|
    (whole9 (fun c b => Wn m ρ 9 c b) c).trans (congrArg k9_pay1 (Wn_of_le m ρ 0 c main_arg10 9 (by decide) (by decide) (by decide)))

theorem image10 (c : Dev nD) : Wn m ρ 11 c (Proc.devRef .tc main_v10) = k10_pay1 (m ((c : Thread nD τ).loc main_arg11)) :=
  (Wn_of_le m ρ 11 c main_v10 11 (by decide) (by decide) (by decide)).trans <| (Wn_arr m ρ 10 (of_decide_eq_true rfl) c 1).trans <|
    (whole10 (fun c b => Wn m ρ 10 c b) c).trans (congrArg k10_pay1 (Wn_of_le m ρ 0 c main_arg11 10 (by decide) (by decide) (by decide)))

theorem image_arg0 (c : Dev nD) : Wn m ρ 11 c (Proc.devRef .tc main_arg0) = m ((c : Thread nD τ).loc main_arg0) :=
  Wn_of_le m ρ 0 c main_arg0 11 (by decide) (by decide) (by decide)

end Cert.KernelIdeal.Readback

end
-- ==== Proof.Upsample.lean ====
import Idealize.ShloMosaic.PureOps.Ideal
import Idealize.ShloMosaic.Lib.ValueIdx

namespace Cert.Upsample

open Idealize.ShloMosaic

/-- An h × h image, stored as [1, 1, h, h]. -/
abbrev Img (h : Nat) : Shape := ⟨4, ![1, 1, h, h]⟩

/-- Target pixel (i, j) of the 352 × 352 image shows source pixel (i / xs, j / xs); xs · h = 352 keeps it in the source. -/
abbrev src (xs h : Nat) (hx : xs * h = 352) (j : (Img 352).Idx) : (Img h).Idx := fun a => match a with
  | ⟨0, _⟩ => ⟨0, Nat.one_pos⟩
  | ⟨1, _⟩ => ⟨0, Nat.one_pos⟩
  | ⟨2, _⟩ => ⟨(j 2).val / xs, Nat.div_lt_of_lt_mul (Nat.lt_of_lt_of_eq (j 2).isLt hx.symm)⟩
  | ⟨3, _⟩ => ⟨(j 3).val / xs, Nat.div_lt_of_lt_mul (Nat.lt_of_lt_of_eq (j 3).isLt hx.symm)⟩

/-- The h × h image `x` enlarged to 352 × 352 by repeating every pixel xs times along both image axes. -/
def up {α : Type} (xs h : Nat) (hx : xs * h = 352) (x : (Img h).Idx → α) : (Img 352).Idx → α := fun j => x (src xs h hx j)

abbrev src176 := src 2 176 rfl
abbrev src88 := src 4 88 rfl
abbrev src44 := src 8 44 rfl
abbrev src22 := src 16 22 rfl
abbrev src11 := src 32 11 rfl

abbrev up176 {α : Type} := up (α := α) 2 176 rfl
abbrev up88 {α : Type} := up (α := α) 4 88 rfl
abbrev up44 {α : Type} := up (α := α) 8 44 rfl
abbrev up22 {α : Type} := up (α := α) 16 22 rfl
abbrev up11 {α : Type} := up (α := α) 32 11 rfl

/-- Twelve 352 × 352 channels, [1, 12, 352, 352]. -/
abbrev T12 : Shape := ⟨4, ![1, 12, 352, 352]⟩

theorem joins : Shape.Concatenates (List.replicate 12 (Img 352)) T12 1 := by decide

/-- Channel 0 is the full-size image, channel k ≥ 1 the k-th smaller image enlarged; joined along axis 1. -/
def stacked {α : Type} (x0 : (Img 352).Idx → α) (x1 : (Img 176).Idx → α) (x2 : (Img 88).Idx → α) (x3 : (Img 44).Idx → α) (x4 : (Img 22).Idx → α) (x5 : (Img 11).Idx → α) (x6 : (Img 176).Idx → α) (x7 : (Img 88).Idx → α) (x8 : (Img 44).Idx → α) (x9 : (Img 22).Idx → α) (x10 : (Img 11).Idx → α) (x11 : (Img 176).Idx → α) : T12.Idx → α :=
  concatenate T12 1 [⟨Img 352, x0⟩, ⟨Img 352, up176 x1⟩, ⟨Img 352, up88 x2⟩, ⟨Img 352, up44 x3⟩, ⟨Img 352, up22 x4⟩, ⟨Img 352, up11 x5⟩, ⟨Img 352, up176 x6⟩, ⟨Img 352, up88 x7⟩, ⟨Img 352, up44 x8⟩, ⟨Img 352, up22 x9⟩, ⟨Img 352, up11 x10⟩, ⟨Img 352, up176 x11⟩] joins

end Cert.Upsample
-- ==== Proof.PayValue.lean ====
import proofs.«171194_j21698174779469_1_alg».proof.Proof.Gen.KernelIdeal.Skeleton
import proofs.«171194_j21698174779469_1_alg».proof.Proof.Upsample
import Idealize.ShloMosaic.Lib.StackMember
import Idealize.ShloMosaic.Lib.Pipeline.Value
import Idealize.ShloMosaic.Lib.ValueLayout
import Idealize.ShloMosaic.PureOps.Ideal.Laws

noncomputable section

open Idealize.ShloMosaic

namespace Cert.KernelIdeal.PayValue

open Cert.KernelIdeal Cert.KernelIdeal.Gen Cert.Upsample
open Idealize.ShloMosaic.ValueIdx

/-- Floor division of a word by `c`: the truncated quotient, less one where the signs differ and the remainder is not zero. -/
def floorDivWord (c a : BitVec 32) : BitVec 32 :=
  Scalar.select
    (IntOp.andi
      (IntOp.cmpi .ne
        (IntOp.subi ((IntOp.cmpi .sgt a 0#32).setWidth 32) ((IntOp.cmpi .slt a 0#32).setWidth 32))
        (Scalar.subi (Scalar.extui (Scalar.cmpi .sgt c 0#32)) (Scalar.extui (Scalar.cmpi .slt c 0#32))))
      (IntOp.cmpi .ne (IntOp.remsi .vector a c) 0#32))
    (IntOp.subi (IntOp.divsi .vector a c) 1#32)
    (IntOp.divsi .vector a c)

/-- The five repetition factors. -/
abbrev factors : List Nat := [2, 4, 8, 16, 32]

/-- On 0 … 351 it is the natural quotient: the correction never fires on a non-negative dividend. -/
theorem floorDivWord_ofNat : ∀ xs ∈ factors, ∀ i : Fin 352,
    floorDivWord (BitVec.ofNat 32 xs) (BitVec.ofNat 32 i.val) = BitVec.ofNat 32 (i.val / xs) := by
  decide +kernel

/-- A matrix shape. -/
abbrev M (a b : Nat) : Shape := ⟨2, ![a, b]⟩

/-- The selection matrix R (352 × h): 1 where the floor-divided row number is the column number. -/
def sel (xs h : Nat) (w0 : (M 352 h).Iotas .tc 32 [0]) (w1 : (M 352 h).Iotas .tc 32 [1]) : FVec Ideal (M 352 h) .f32 :=
  fun j => FloatOps.sitofp .f32
    ((IntOp.cmpi .eq (floorDivWord (BitVec.ofNat 32 xs) (iota .tc _ 32 [0] w0 j)) (iota .tc _ 32 [1] w1 j)).setWidth 32)

/-- A truth value widened to a word and converted is 1 or 0. -/
theorem sitofp_ofBool (b : Bool) :
    FloatOps.sitofp (F := Ideal) .f32 ((BitVec.ofBool b).setWidth 32 : BitVec 32) = if b then (1 : EReal) else 0 := by
  cases b
  · show (((0#32 : BitVec 32).toInt : ℝ) : EReal) = 0
    rw [show (0#32 : BitVec 32).toInt = 0 by decide]; simp
  · show (((1#32 : BitVec 32).toInt : ℝ) : EReal) = 1
    rw [show (1#32 : BitVec 32).toInt = 1 by decide]; simp

/-- Row or column p of the large image lies over row or column p / xs of the small one. -/
def quot {xs h : Nat} (hx : xs * h = 352) (p : Fin 352) : Fin h :=
  ⟨p.val / xs, Nat.div_lt_of_lt_mul (Nat.lt_of_lt_of_eq p.isLt hx.symm)⟩

/-- R[p, k] = 1 if p / xs = k, else 0: both numbers are below 2 ^ 32, where a word determines its number. -/
theorem sel_apply {xs h : Nat} (hx : xs * h = 352) (hf : xs ∈ factors) (w0 : (M 352 h).Iotas .tc 32 [0])
    (w1 : (M 352 h).Iotas .tc 32 [1]) (p : Fin 352) (k : Fin h) :
    sel xs h w0 w1 (ix2 p k) = if quot hx p = k then (1 : EReal) else 0 := by
  have hh : h ≤ 352 := Nat.le_of_dvd (by decide) (Dvd.intro_left xs hx)
  have hp : p.val / xs < 2 ^ 32 := lt_of_le_of_lt (Nat.div_le_self _ _) (by have := p.isLt; omega)
  have hk : k.val < 2 ^ 32 := by have := k.isLt; omega
  unfold sel
  rw [iota_single_apply, iota_single_apply]
  show FloatOps.sitofp (F := Ideal) .f32 ((BitVec.ofBool (floorDivWord _ (BitVec.ofNat 32 p.val) == BitVec.ofNat 32 k.val)).setWidth 32) = _
  rw [floorDivWord_ofNat xs hf p, sitofp_ofBool]
  refine if_congr (beq_iff_eq.trans ?_) rfl rfl
  rw [← BitVec.toNat_inj, BitVec.toNat_ofNat, BitVec.toNat_ofNat, Nat.mod_eq_of_lt hp, Nat.mod_eq_of_lt hk]
  exact Fin.val_eq_val (quot hx p) k

/-- A matrix product added to zero, read at (p, q): the sum over the contracted coordinate. -/
theorem plain_apply {m k n : Nat} (A : FVec Ideal (M m k) .f32) (B : FVec Ideal (M k n) .f32) (p : Fin m) (q : Fin n) :
    FloatOps.matmul (DotDims.plain m k n) (some .fp32) A B (constant (M m n) .f32 0x00000000#32) (ix2 p q)
      = ∑ l : Fin k, A (ix2 p l) * B (ix2 l q) :=
  (Ideal.matmul_constant_zero_apply _ _ A B _).trans
    ((Ideal.dotGeneral_apply _ _ _ A B _).symm.trans (StackMember.dotGeneral_plain_apply (some .fp32) A B p q))

/-- The same with the right operand contracted on its last axis. -/
theorem transposed_apply {m k n : Nat} (A : FVec Ideal (M m k) .f32) (B : FVec Ideal (M n k) .f32) (p : Fin m) (q : Fin n) :
    FloatOps.matmul (DotDims.transposedRhs m k n) (some .fp32) A B (constant (M m n) .f32 0x00000000#32) (ix2 p q)
      = ∑ l : Fin k, A (ix2 p l) * B (ix2 q l) := by
  rw [Ideal.matmul_constant_zero_apply, ← Equiv.sum_comp (contrEquiv1 (DotDims.transposedRhs m k n) k rfl rfl).symm]
  refine Finset.sum_congr rfl fun l _ => ?_
  have c := contrEquiv1_symm_val (DotDims.transposedRhs m k n) k rfl rfl l
  congr 2 <;> funext ax <;> apply Fin.ext <;> match ax with
    | ⟨0, _⟩ => rfl
    | ⟨1, _⟩ => exact c

/-- The stored value: R · X · Rᵀ, cast to [1, 1, 352, 352]. -/
def body (xs h : Nat) (w0 : (M 352 h).Iotas .tc 32 [0]) (w1 : (M 352 h).Iotas .tc 32 [1])
    (s1 : (Img h).ShapeCasts (M h h)) (s2 : (M 352 352).ShapeCasts (Img 352)) (x : Vec Ideal (Img h) .f32) :
    FVec Ideal (Img 352) .f32 :=
  shapeCast (Img 352)
    (FloatOps.matmul (DotDims.transposedRhs 352 h 352) (some .fp32)
      (FloatOps.matmul (DotDims.plain 352 h h) (some .fp32) (sel xs h w0 w1)
        (shapeCast (M h h) x s1 : FVec Ideal (M h h) .f32)
        (constant (M 352 h) .f32 0x00000000#32))
      (sel xs h w0 w1) (constant (M 352 352) .f32 0x00000000#32)) s2

/-- Entry (p, q) is X[p / xs, q / xs]: a sum against a row of R keeps one term, as 0 · a = 0 and 1 · a = a in the extended reals. -/
theorem body_eq {xs h : Nat} (hx : xs * h = 352) (hf : xs ∈ factors) (w0 : (M 352 h).Iotas .tc 32 [0])
    (w1 : (M 352 h).Iotas .tc 32 [1]) (s1 : (Img h).ShapeCasts (M h h)) (s2 : (M 352 352).ShapeCasts (Img 352))
    (x : Vec Ideal (Img h) .f32) : body xs h w0 w1 s1 s2 x = up xs h hx x := by
  funext j
  obtain ⟨a, b, p, q, rfl⟩ : ∃ (a b : Fin 1) (p q : Fin 352), j = ix4 a b p q := ⟨j 0, j 1, j 2, j 3, eq_ix4 j⟩
  unfold body
  rw [shapeCast_apply _ s2 (ix4 a b p q) (ix2 p q) (by
    rw [Shape.rowMajor_val_two, Shape.rowMajor_val_four]
    show p.val * 352 + q.val = ((a.val * 1 + b.val) * 352 + p.val) * 352 + q.val
    have ha := a.isLt; have hb := b.isLt; omega)]
  rw [transposed_apply, Fintype.sum_eq_single (quot hx q) fun l hl => by
    rw [sel_apply hx hf, if_neg hl.symm, mul_zero]]
  rw [sel_apply hx hf, if_pos rfl, mul_one, plain_apply, Fintype.sum_eq_single (quot hx p) fun k hk => by
    rw [sel_apply hx hf, if_neg hk.symm, zero_mul]]
  rw [sel_apply hx hf, if_pos rfl, one_mul]
  unfold shapeCast
  rw [reshapeEquiv_ix2_11ab]
  exact congrArg x (funext fun ax => match ax with | ⟨0, _⟩ => rfl | ⟨1, _⟩ => rfl | ⟨2, _⟩ => rfl | ⟨3, _⟩ => rfl)

theorem pay0 (x : Vec Ideal S1x1x176x176 .f32) : k0_pay1 (F := Ideal) x = up176 x :=
  body_eq (xs := 2) rfl (by decide) _ _ _ _ x

theorem pay1 (x : Vec Ideal S1x1x88x88 .f32) : k1_pay1 (F := Ideal) x = up88 x :=
  body_eq (xs := 4) rfl (by decide) _ _ _ _ x

theorem pay2 (x : Vec Ideal S1x1x44x44 .f32) : k2_pay1 (F := Ideal) x = up44 x :=
  body_eq (xs := 8) rfl (by decide) _ _ _ _ x

theorem pay3 (x : Vec Ideal S1x1x22x22 .f32) : k3_pay1 (F := Ideal) x = up22 x :=
  body_eq (xs := 16) rfl (by decide) _ _ _ _ x

theorem pay4 (x : Vec Ideal S1x1x11x11 .f32) : k4_pay1 (F := Ideal) x = up11 x :=
  body_eq (xs := 32) rfl (by decide) _ _ _ _ x

theorem pay5 (x : Vec Ideal S1x1x176x176 .f32) : k5_pay1 (F := Ideal) x = up176 x :=
  body_eq (xs := 2) rfl (by decide) _ _ _ _ x

theorem pay6 (x : Vec Ideal S1x1x88x88 .f32) : k6_pay1 (F := Ideal) x = up88 x :=
  body_eq (xs := 4) rfl (by decide) _ _ _ _ x

theorem pay7 (x : Vec Ideal S1x1x44x44 .f32) : k7_pay1 (F := Ideal) x = up44 x :=
  body_eq (xs := 8) rfl (by decide) _ _ _ _ x

theorem pay8 (x : Vec Ideal S1x1x22x22 .f32) : k8_pay1 (F := Ideal) x = up22 x :=
  body_eq (xs := 16) rfl (by decide) _ _ _ _ x

theorem pay9 (x : Vec Ideal S1x1x11x11 .f32) : k9_pay1 (F := Ideal) x = up11 x :=
  body_eq (xs := 32) rfl (by decide) _ _ _ _ x

theorem pay10 (x : Vec Ideal S1x1x176x176 .f32) : k10_pay1 (F := Ideal) x = up176 x :=
  body_eq (xs := 2) rfl (by decide) _ _ _ _ x

end Cert.KernelIdeal.PayValue
-- ==== Proof.IdealResult.lean ====
import proofs.«171194_j21698174779469_1_alg».proof.Proof.IdealRun
import proofs.«171194_j21698174779469_1_alg».proof.Proof.IdealRead
import proofs.«171194_j21698174779469_1_alg».proof.Proof.PayValue
import proofs.«171194_j21698174779469_1_alg».proof.Proof.Upsample
import Idealize.ShloMosaic.Lib.StableHlo.Run

noncomputable section

namespace Cert.KernelIdeal.Result

open Cert.KernelIdeal Cert.KernelIdeal.Gen Cert.KernelIdeal.Fold Cert.KernelIdeal.Readback Cert.KernelIdeal.PayValue Cert.Upsample
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem joined (c : Dev nD) : W12 m ρ c (Proc.devRef .tc main_v11)
    = stacked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps11 (Wn m ρ 11 c) (Proc.devRef .tc main_v11) = _
  after_results
  show concatenate S1x12x352x352 1
    [ ⟨S1x1x352x352, Wn m ρ 11 c (Proc.devRef .tc main_arg0)⟩,
      ⟨S1x1x352x352, Wn m ρ 11 c (Proc.devRef .tc main_v0)⟩,
      ⟨S1x1x352x352, Wn m ρ 11 c (Proc.devRef .tc main_v1)⟩,
      ⟨S1x1x352x352, Wn m ρ 11 c (Proc.devRef .tc main_v2)⟩,
      ⟨S1x1x352x352, Wn m ρ 11 c (Proc.devRef .tc main_v3)⟩,
      ⟨S1x1x352x352, Wn m ρ 11 c (Proc.devRef .tc main_v4)⟩,
      ⟨S1x1x352x352, Wn m ρ 11 c (Proc.devRef .tc main_v5)⟩,
      ⟨S1x1x352x352, Wn m ρ 11 c (Proc.devRef .tc main_v6)⟩,
      ⟨S1x1x352x352, Wn m ρ 11 c (Proc.devRef .tc main_v7)⟩,
      ⟨S1x1x352x352, Wn m ρ 11 c (Proc.devRef .tc main_v8)⟩,
      ⟨S1x1x352x352, Wn m ρ 11 c (Proc.devRef .tc main_v9)⟩,
      ⟨S1x1x352x352, Wn m ρ 11 c (Proc.devRef .tc main_v10)⟩ ] _ = _
  rw [image_arg0 m ρ c, image0 m ρ c, image1 m ρ c, image2 m ρ c, image3 m ρ c, image4 m ρ c, image5 m ρ c, image6 m ρ c, image7 m ρ c, image8 m ρ c, image9 m ρ c, image10 m ρ c]
  rw [pay0, pay1, pay2, pay3, pay4, pay5, pay6, pay7, pay8, pay9, pay10]
  rfl

theorem value_run : θ_run defs (onTc (τ := τ) (main (F := Ideal))) ⟨m, fun _ => 0, ρ⟩ (fun r => ∀ c : Dev nD,
      r.2.mem ((c.tc : Thread nD τ).loc main_v11) = stacked (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v11 (by decide))).trans (joined m ρ c),
     kept_mem m ρ c (h c) main_arg0 (by decide) (by decide) (by decide),
     kept_mem m ρ c (h c) main_arg1 (by decide) (by decide) (by decide),
     kept_mem m ρ c (h c) main_arg2 (by decide) (by decide) (by decide),
     kept_mem m ρ c (h c) main_arg3 (by decide) (by decide) (by decide),
     kept_mem m ρ c (h c) main_arg4 (by decide) (by decide) (by decide),
     kept_mem m ρ c (h c) main_arg5 (by decide) (by decide) (by decide),
     kept_mem m ρ c (h c) main_arg6 (by decide) (by decide) (by decide),
     kept_mem m ρ c (h c) main_arg7 (by decide) (by decide) (by decide),
     kept_mem m ρ c (h c) main_arg8 (by decide) (by decide) (by decide),
     kept_mem m ρ c (h c) main_arg9 (by decide) (by decide) (by decide),
     kept_mem m ρ c (h c) main_arg10 (by decide) (by decide) (by decide),
     kept_mem m ρ c (h c) main_arg11 (by decide) (by decide) (by decide)⟩)
    (Cert.KernelIdeal.Run.run (F := Ideal) m ρ)

end Cert.KernelIdeal.Result

end
-- ==== Proof.RefValue.lean ====
import proofs.«171194_j21698174779469_1_alg».proof.Proof.Gen.ReferenceIdeal.Read
import proofs.«171194_j21698174779469_1_alg».proof.Proof.Upsample
import Idealize.ShloMosaic.Lib.KernelVsHost
import Idealize.ShloMosaic.Lib.Pipeline.Value
import Idealize.ShloMosaic.Lib.ValueIdx

noncomputable section

open Idealize.ShloMosaic

namespace Cert.ReferenceIdeal.RefValue

open Cert.ReferenceIdeal Cert.ReferenceIdeal.Read Cert.Upsample

theorem pad_by_nothing {α : Type} (y : S1x1x352x352.Idx → α) {u : Shape} (v : u.Idx → α)
    (h : S1x1x352x352.Pads ![0, 0, 0, 0] ![0, 0, 0, 0] ![0, 0, 0, 0] S1x1x352x352) (hu : 0 < u.numel) :
    pad S1x1x352x352 ![0, 0, 0, 0] ![0, 0, 0, 0] ![0, 0, 0, 0] y v h hu = y := by
  funext j
  exact pad_apply_of_inside _ _ _ y v h hu j j (fun a => match a with
    | ⟨0, _⟩ => by show (j 0).val = 0 + (j 0).val * (0 + 1); omega
    | ⟨1, _⟩ => by show (j 1).val = 0 + (j 1).val * (0 + 1); omega
    | ⟨2, _⟩ => by show (j 2).val = 0 + (j 2).val * (0 + 1); omega
    | ⟨3, _⟩ => by show (j 3).val = 0 + (j 3).val * (0 + 1); omega)

theorem channel1 (x : (⟨S1x1x176x176, .f32⟩ : BufTy).Contents (Elt Ideal)) :
    val_main_v4 (F := Ideal) x = up176 x := by
  unfold val_main_v4
  rw [pad_by_nothing]
  funext j
  rw [val_main_v3_apply, val_main_v2_apply, val_main_v1_apply, val_main_v0_apply]
  show x _ = x (src176 j)
  refine congrArg x (funext fun a => ?_)
  have h0 : (j 0).val < 1 := (j 0).isLt
  have h1 : (j 1).val < 1 := (j 1).isLt
  have h2 : (j 2).val < 352 := (j 2).isLt
  have h3 : (j 3).val < 352 := (j 3).isLt
  match a with
  | ⟨0, _⟩ => rfl
  | ⟨1, _⟩ => rfl
  | ⟨2, _⟩ => exact Fin.ext (by dsimp only; omega)
  | ⟨3, _⟩ => exact Fin.ext (by dsimp only; omega)

theorem channel6 (x : (⟨S1x1x176x176, .f32⟩ : BufTy).Contents (Elt Ideal)) :
    val_main_v29 (F := Ideal) x = up176 x :=
  (show val_main_v29 (F := Ideal) x = val_main_v4 (F := Ideal) x from rfl).trans (channel1 x)

theorem channel11 (x : (⟨S1x1x176x176, .f32⟩ : BufTy).Contents (Elt Ideal)) :
    val_main_v54 (F := Ideal) x = up176 x :=
  (show val_main_v54 (F := Ideal) x = val_main_v4 (F := Ideal) x from rfl).trans (channel1 x)

theorem channel2 (x : (⟨S1x1x88x88, .f32⟩ : BufTy).Contents (Elt Ideal)) :
    val_main_v9 (F := Ideal) x = up88 x := by
  unfold val_main_v9
  rw [pad_by_nothing]
  funext j
  rw [val_main_v8_apply, val_main_v7_apply, val_main_v6_apply, val_main_v5_apply]
  show x _ = x (src88 j)
  refine congrArg x (funext fun a => ?_)
  have h0 : (j 0).val < 1 := (j 0).isLt
  have h1 : (j 1).val < 1 := (j 1).isLt
  have h2 : (j 2).val < 352 := (j 2).isLt
  have h3 : (j 3).val < 352 := (j 3).isLt
  match a with
  | ⟨0, _⟩ => rfl
  | ⟨1, _⟩ => rfl
  | ⟨2, _⟩ => exact Fin.ext (by dsimp only; omega)
  | ⟨3, _⟩ => exact Fin.ext (by dsimp only; omega)

theorem channel7 (x : (⟨S1x1x88x88, .f32⟩ : BufTy).Contents (Elt Ideal)) :
    val_main_v34 (F := Ideal) x = up88 x :=
  (show val_main_v34 (F := Ideal) x = val_main_v9 (F := Ideal) x from rfl).trans (channel2 x)

theorem channel3 (x : (⟨S1x1x44x44, .f32⟩ : BufTy).Contents (Elt Ideal)) :
    val_main_v14 (F := Ideal) x = up44 x := by
  unfold val_main_v14
  rw [pad_by_nothing]
  funext j
  rw [val_main_v13_apply, val_main_v12_apply, val_main_v11_apply, val_main_v10_apply]
  show x _ = x (src44 j)
  refine congrArg x (funext fun a => ?_)
  have h0 : (j 0).val < 1 := (j 0).isLt
  have h1 : (j 1).val < 1 := (j 1).isLt
  have h2 : (j 2).val < 352 := (j 2).isLt
  have h3 : (j 3).val < 352 := (j 3).isLt
  match a with
  | ⟨0, _⟩ => rfl
  | ⟨1, _⟩ => rfl
  | ⟨2, _⟩ => exact Fin.ext (by dsimp only; omega)
  | ⟨3, _⟩ => exact Fin.ext (by dsimp only; omega)

theorem channel8 (x : (⟨S1x1x44x44, .f32⟩ : BufTy).Contents (Elt Ideal)) :
    val_main_v39 (F := Ideal) x = up44 x :=
  (show val_main_v39 (F := Ideal) x = val_main_v14 (F := Ideal) x from rfl).trans (channel3 x)

theorem channel4 (x : (⟨S1x1x22x22, .f32⟩ : BufTy).Contents (Elt Ideal)) :
    val_main_v19 (F := Ideal) x = up22 x := by
  unfold val_main_v19
  rw [pad_by_nothing]
  funext j
  rw [val_main_v18_apply, val_main_v17_apply, val_main_v16_apply, val_main_v15_apply]
  show x _ = x (src22 j)
  refine congrArg x (funext fun a => ?_)
  have h0 : (j 0).val < 1 := (j 0).isLt
  have h1 : (j 1).val < 1 := (j 1).isLt
  have h2 : (j 2).val < 352 := (j 2).isLt
  have h3 : (j 3).val < 352 := (j 3).isLt
  match a with
  | ⟨0, _⟩ => rfl
  | ⟨1, _⟩ => rfl
  | ⟨2, _⟩ => exact Fin.ext (by dsimp only; omega)
  | ⟨3, _⟩ => exact Fin.ext (by dsimp only; omega)

theorem channel9 (x : (⟨S1x1x22x22, .f32⟩ : BufTy).Contents (Elt Ideal)) :
    val_main_v44 (F := Ideal) x = up22 x :=
  (show val_main_v44 (F := Ideal) x = val_main_v19 (F := Ideal) x from rfl).trans (channel4 x)

theorem channel5 (x : (⟨S1x1x11x11, .f32⟩ : BufTy).Contents (Elt Ideal)) :
    val_main_v24 (F := Ideal) x = up11 x := by
  unfold val_main_v24
  rw [pad_by_nothing]
  funext j
  rw [val_main_v23_apply, val_main_v22_apply, val_main_v21_apply, val_main_v20_apply]
  show x _ = x (src11 j)
  refine congrArg x (funext fun a => ?_)
  have h0 : (j 0).val < 1 := (j 0).isLt
  have h1 : (j 1).val < 1 := (j 1).isLt
  have h2 : (j 2).val < 352 := (j 2).isLt
  have h3 : (j 3).val < 352 := (j 3).isLt
  match a with
  | ⟨0, _⟩ => rfl
  | ⟨1, _⟩ => rfl
  | ⟨2, _⟩ => exact Fin.ext (by dsimp only; omega)
  | ⟨3, _⟩ => exact Fin.ext (by dsimp only; omega)

theorem channel10 (x : (⟨S1x1x11x11, .f32⟩ : BufTy).Contents (Elt Ideal)) :
    val_main_v49 (F := Ideal) x = up11 x :=
  (show val_main_v49 (F := Ideal) x = val_main_v24 (F := Ideal) x from rfl).trans (channel5 x)

theorem result_eq (x0 : (⟨S1x1x352x352, .f32⟩ : BufTy).Contents (Elt Ideal))
    (x1 : (⟨S1x1x176x176, .f32⟩ : BufTy).Contents (Elt Ideal)) (x2 : (⟨S1x1x88x88, .f32⟩ : BufTy).Contents (Elt Ideal))
    (x3 : (⟨S1x1x44x44, .f32⟩ : BufTy).Contents (Elt Ideal)) (x4 : (⟨S1x1x22x22, .f32⟩ : BufTy).Contents (Elt Ideal))
    (x5 : (⟨S1x1x11x11, .f32⟩ : BufTy).Contents (Elt Ideal)) (x6 : (⟨S1x1x176x176, .f32⟩ : BufTy).Contents (Elt Ideal))
    (x7 : (⟨S1x1x88x88, .f32⟩ : BufTy).Contents (Elt Ideal)) (x8 : (⟨S1x1x44x44, .f32⟩ : BufTy).Contents (Elt Ideal))
    (x9 : (⟨S1x1x22x22, .f32⟩ : BufTy).Contents (Elt Ideal)) (x10 : (⟨S1x1x11x11, .f32⟩ : BufTy).Contents (Elt Ideal))
    (x11 : (⟨S1x1x176x176, .f32⟩ : BufTy).Contents (Elt Ideal)) :
    val_main_v55 (F := Ideal) x0 x1 x2 x3 x4 x5 x6 x7 x8 x9 x10 x11
      = stacked x0 x1 x2 x3 x4 x5 x6 x7 x8 x9 x10 x11 := by
  unfold val_main_v55 stacked
  rw [channel1, channel2, channel3, channel4, channel5, channel6, channel7, channel8, channel9, channel10, channel11]

end Cert.ReferenceIdeal.RefValue
-- ==== Proof.lean ====
import proofs.«171194_j21698174779469_1_alg».proof.Defs
import proofs.«171194_j21698174779469_1_alg».proof.Proof.Gen.Kernel
import proofs.«171194_j21698174779469_1_alg».proof.Proof.Gen.KernelIdeal
import proofs.«171194_j21698174779469_1_alg».proof.Proof.Gen.ReferenceIdeal
import proofs.«171194_j21698174779469_1_alg».proof.Proof.Gen.Pre_finite_inputs
import proofs.«171194_j21698174779469_1_alg».proof.Proof.Gen.ReferenceIdeal.Run
import proofs.«171194_j21698174779469_1_alg».proof.Proof.Gen.ReferenceIdeal.Read
import proofs.«171194_j21698174779469_1_alg».proof.Proof.BitsRun
import proofs.«171194_j21698174779469_1_alg».proof.Proof.BitsRead
import proofs.«171194_j21698174779469_1_alg».proof.Proof.IdealRun
import proofs.«171194_j21698174779469_1_alg».proof.Proof.IdealRead
import proofs.«171194_j21698174779469_1_alg».proof.Proof.IdealResult
import proofs.«171194_j21698174779469_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ =>
  (θ_run Cert.Kernel.defs _ _).mono (fun r h c =>
    ⟨Cert.Kernel.Readback.kept_mem m ρ c (h c) Cert.Kernel.main_arg0 (by decide) (by decide) (by decide),
     Cert.Kernel.Readback.kept_mem m ρ c (h c) Cert.Kernel.main_arg1 (by decide) (by decide) (by decide),
     Cert.Kernel.Readback.kept_mem m ρ c (h c) Cert.Kernel.main_arg2 (by decide) (by decide) (by decide),
     Cert.Kernel.Readback.kept_mem m ρ c (h c) Cert.Kernel.main_arg3 (by decide) (by decide) (by decide),
     Cert.Kernel.Readback.kept_mem m ρ c (h c) Cert.Kernel.main_arg4 (by decide) (by decide) (by decide),
     Cert.Kernel.Readback.kept_mem m ρ c (h c) Cert.Kernel.main_arg5 (by decide) (by decide) (by decide),
     Cert.Kernel.Readback.kept_mem m ρ c (h c) Cert.Kernel.main_arg6 (by decide) (by decide) (by decide),
     Cert.Kernel.Readback.kept_mem m ρ c (h c) Cert.Kernel.main_arg7 (by decide) (by decide) (by decide),
     Cert.Kernel.Readback.kept_mem m ρ c (h c) Cert.Kernel.main_arg8 (by decide) (by decide) (by decide),
     Cert.Kernel.Readback.kept_mem m ρ c (h c) Cert.Kernel.main_arg9 (by decide) (by decide) (by decide),
     Cert.Kernel.Readback.kept_mem m ρ c (h c) Cert.Kernel.main_arg10 (by decide) (by decide) (by decide),
     Cert.Kernel.Readback.kept_mem m ρ c (h c) Cert.Kernel.main_arg11 (by decide) (by decide) (by decide)⟩)
    (Cert.Kernel.Run.run (F := Bits) m ρ)

theorem frame_kernelIdeal : Cert.frame_KernelIdeal := fun m ρ _ =>
  (θ_run Cert.KernelIdeal.defs _ _).mono (fun r h c =>
    ⟨Cert.KernelIdeal.Readback.kept_mem m ρ c (h c) Cert.KernelIdeal.main_arg0 (by decide) (by decide) (by decide),
     Cert.KernelIdeal.Readback.kept_mem m ρ c (h c) Cert.KernelIdeal.main_arg1 (by decide) (by decide) (by decide),
     Cert.KernelIdeal.Readback.kept_mem m ρ c (h c) Cert.KernelIdeal.main_arg2 (by decide) (by decide) (by decide),
     Cert.KernelIdeal.Readback.kept_mem m ρ c (h c) Cert.KernelIdeal.main_arg3 (by decide) (by decide) (by decide),
     Cert.KernelIdeal.Readback.kept_mem m ρ c (h c) Cert.KernelIdeal.main_arg4 (by decide) (by decide) (by decide),
     Cert.KernelIdeal.Readback.kept_mem m ρ c (h c) Cert.KernelIdeal.main_arg5 (by decide) (by decide) (by decide),
     Cert.KernelIdeal.Readback.kept_mem m ρ c (h c) Cert.KernelIdeal.main_arg6 (by decide) (by decide) (by decide),
     Cert.KernelIdeal.Readback.kept_mem m ρ c (h c) Cert.KernelIdeal.main_arg7 (by decide) (by decide) (by decide),
     Cert.KernelIdeal.Readback.kept_mem m ρ c (h c) Cert.KernelIdeal.main_arg8 (by decide) (by decide) (by decide),
     Cert.KernelIdeal.Readback.kept_mem m ρ c (h c) Cert.KernelIdeal.main_arg9 (by decide) (by decide) (by decide),
     Cert.KernelIdeal.Readback.kept_mem m ρ c (h c) Cert.KernelIdeal.main_arg10 (by decide) (by decide) (by decide),
     Cert.KernelIdeal.Readback.kept_mem m ρ c (h c) Cert.KernelIdeal.main_arg11 (by decide) (by decide) (by decide)⟩)
    (Cert.KernelIdeal.Run.run (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨_, Cert.KernelIdeal.Result.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
